-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S32 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg12
  let main_cst_18 : FVec F S_ .f32 := constant S_ .f32 0x7F800000#32
  let main_v50 : FVec F S32x1 .f32 := broadcastInDim S32x1 ![] bcast_S_S32x1 main_cst_18
  fn_part3 (F := F) main_arg13 main_v48 main_v49 main_v50

def fn_part1 {F : FTy → Type} [FloatOps F] (main_arg6 : FVec F S128x64 .f32) (main_arg7 : FVec F S64 .f32) (main_arg8 : FVec F S64x32 .f32) (main_arg9 : FVec F S32 .f32) (main_arg10 : FVec F S64x32 .f32) (main_arg11 : FVec F S32 .f32) (main_arg12 : FVec F S32x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x3200000 32) (main_arg2 : FVec F S3200000 .f32) (main_arg3 : IVec S100000 32) (main_arg4 : FVec F S128 .f32) (main_arg5 : FVec F S128 .f32) (main_arg6 : FVec F S128x64 .f32) (main_arg7 : FVec F S64 .f32) (main_arg8 : FVec F S64x32 .f32) (main_arg9 : FVec F S32 .f32) (main_arg10 : FVec F S64x32 .f32) (main_arg11 : FVec F S32 .f32) (main_arg12 : FVec F S32x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S1x128 : Shape := ⟨2, ![1, 128]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S5000x1 : Shape := ⟨2, ![5000, 1]⟩
abbrev S5000x32 : Shape := ⟨2, ![5000, 32]⟩
abbrev S3200000x32 : Shape := ⟨2, ![3200000, 32]⟩
abbrev S1x32 : Shape := ⟨2, ![1, 32]⟩
abbrev S32x32 : Shape := ⟨2, ![32, 32]⟩
abbrev S32x64 : Shape := ⟨2, ![32, 64]⟩
abbrev S1x1 : Shape := ⟨2, ![1, 1]⟩

abbrev nBuf : Space → Nat
  | .hbm => 112
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S100000, .i32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S3200000, .f32⟩
  | .hbm, ⟨46, _⟩ => ⟨S100000, .f32⟩
  | .hbm, ⟨47, _⟩ => ⟨S1x128, .f32⟩
  | .hbm, ⟨48, _⟩ => ⟨S1x128, .f32⟩
  | .hbm, ⟨49, _⟩ => ⟨S100000x64, .bf16⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x64, .bf16⟩
  | .hbm, ⟨59, _⟩ => ⟨S3200000x1, .f32⟩
  | .hbm, ⟨60, _⟩ => ⟨S3200000x64, .f32⟩
  | .hbm, ⟨61, _⟩ => ⟨S3200000x64, .f32⟩
  | .hbm, ⟨62, _⟩ => ⟨S3200000x64, .f32⟩
  | .hbm, ⟨63, _⟩ => ⟨S_, .f32⟩
  | .hbm, ⟨64, _⟩ => ⟨S100000x64, .f32⟩
  | .hbm, ⟨65, _⟩ => ⟨S3200000x1, .i32⟩
  | .hbm, ⟨66, _⟩ => ⟨S100000x64, .f32⟩
  | .hbm, ⟨67, _⟩ => ⟨S100000x1, .f32⟩
  | .hbm, ⟨68, _⟩ => ⟨S1x64, .f32⟩
  | .hbm, ⟨69, _⟩ => ⟨S100000x32, .bf16⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x32, .bf16⟩
  | .hbm, ⟨79, _⟩ => ⟨S3200000x1, .f32⟩
  | .hbm, ⟨80, _⟩ => ⟨S3200000x32, .f32⟩
  | .hbm, ⟨81, _⟩ => ⟨S3200000x32, .f32⟩
  | .hbm, ⟨82, _⟩ => ⟨S3200000x32, .f32⟩
  | .hbm, ⟨83, _⟩ => ⟨S_, .f32⟩
  | .hbm, ⟨84, _⟩ => ⟨S100000x32, .f32⟩
  | .hbm, ⟨85, _⟩ => ⟨S3200000x1, .i32⟩
  | .hbm, ⟨86, _⟩ => ⟨S100000x32, .f32⟩
  | .hbm, ⟨87, _⟩ => ⟨S100000x1, .i32⟩
  | .hbm, ⟨88, _⟩ => ⟨S100000x1, .f32⟩
  | .hbm, ⟨89, _⟩ => ⟨S1x32, .f32⟩
  | .hbm, ⟨90, _⟩ => ⟨S32x32, .f32⟩
  | .hbm, ⟨91, _⟩ => ⟨S1x32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S32x1, .f32⟩
  | .hbm, ⟨97, _⟩ => ⟨S32x32, .f32⟩
  | .hbm, ⟨98, _⟩ => ⟨S32x32, .f32⟩
  | .hbm, ⟨99, _⟩ => ⟨S32x64, .f32⟩
  | .hbm, ⟨100, _⟩ => ⟨S32x32, .f32⟩
  | .hbm, ⟨101, _⟩ => ⟨S1x32, .f32⟩
  | .hbm, ⟨102, _⟩ => ⟨S32x32, .f32⟩
  | .hbm, ⟨103, _⟩ => ⟨S32x32, .f32⟩
  | .hbm, ⟨104, _⟩ => ⟨S_, .f32⟩
  | .hbm, ⟨105, _⟩ => ⟨S32x32, .f32⟩
  | .hbm, ⟨106, _⟩ => ⟨S32x32, .f32⟩
  | .hbm, ⟨107, _⟩ => ⟨S32x1, .f32⟩
  | .hbm, ⟨108, _⟩ => ⟨S1x1, .f32⟩
  | .hbm, ⟨109, _⟩ => ⟨S32x1, .f32⟩
  | .hbm, ⟨110, _⟩ => ⟨S32x1, .f32⟩
  | .hbm, ⟨111, _⟩ => ⟨S32, .f32⟩
  | .local _ .vmem, ⟨0, _⟩ => ⟨S1x128, .f32⟩
  | .local _ .vmem, ⟨1, _⟩ => ⟨S1x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x64, .bf16⟩
  | .local _ .vmem, ⟨10, _⟩ => ⟨S5000x64, .bf16⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x32, .f32⟩
  | .local _ .vmem, ⟨15, _⟩ => ⟨S5000x32, .bf16⟩
  | .local _ .vmem, ⟨16, _⟩ => ⟨S5000x32, .bf16⟩
  | .local _ .vmem, ⟨17, _⟩ => ⟨S5000x1, .i32⟩
  | .local _ .vmem, ⟨18, _⟩ => ⟨S5000x1, .i32⟩
  | .local _ .vmem, ⟨19, _⟩ => ⟨S5000x32, .f32⟩
  | .local _ .vmem, ⟨20, _⟩ => ⟨S5000x32, .f32⟩
  | .local _ .vmem, ⟨21, _⟩ => ⟨S5000x32, .bf16⟩
  | .local _ .vmem, ⟨22, _⟩ => ⟨S5000x32, .bf16⟩
  | .local _ .vmem, ⟨23, _⟩ => ⟨S5000x1, .f32⟩
  | .local _ .vmem, ⟨24, _⟩ => ⟨S5000x1, .f32⟩
  | .local _ .vmem, ⟨25, _⟩ => ⟨S1x32, .f32⟩
  | .local _ .vmem, ⟨26, _⟩ => ⟨S32x32, .f32⟩
  | .local _ .vmem, ⟨27, _⟩ => ⟨S1x32, .f32⟩
  | .local _ .vmem, ⟨28, _⟩ => ⟨S32x32, .f32⟩
  | .local _ .vmem, ⟨29, _⟩ => ⟨S1x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call0_cst : Ref sig .tc := ⟨.hbm, 104, rfl⟩
abbrev main_call0_v0 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_scratch0 : Ref sig .tc := ⟨.vmem, 28, rfl⟩
abbrev cc2_scratch1 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v39 : BitVec 1 := Scalar.cmpi .eq arg0 c19_i32
  let v40 : BitVec 32 := Scalar.extui v39
  let c0_i32_20 : BitVec 32 := 0#32
  let v41 : BitVec 1 := Scalar.cmpi .ne v40 c0_i32_20
  v41

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S5000x32_S5000x32 : S5000x32.ShapeCasts S5000x32
  broadcasts_S5000x1_S5000x32 : S5000x1.Broadcasts S5000x32
  broadcasts_S1x32_S5000x32 : S1x32.Broadcasts S5000x32
  iota_S5000x32_d1_w32 : S5000x32.Iotas .tc 32 [1]
  natLt_1_32 : 1 < 32
  reduces_S5000x32_S32 : S5000x32.Reduces [0] S32
  shapeCasts_S1x32_S32 : S1x32.ShapeCasts S32
  bcast_S_S32 : S_.BroadcastsInDim S32 (![] : Fin 0 → Fin S32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  concatenates_S32x32_S32x32_S32x64_d1 : Shape.Concatenates [S32x32, S32x32] S32x64 1
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S5000x32_S32x32_0_0_1_1_n_n_wf : DotDims.WF S5000x32 S5000x32 S32x32 [0] [0] [1] [1] [] []
  dot_S32x64_S64x32_S32x32_1_0_0_1_n_n_wf : DotDims.WF S32x64 S64x32 S32x32 [1] [0] [0] [1] [] []
  dot_S32x32_S32x1_S32x1_1_0_0_1_n_n_wf : DotDims.WF S32x32 S32x1 S32x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .bf16 = 32 ∨ (Rect.block (s := S100000x32) S5000x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .i32 = 32 ∨ (Rect.block (s := S100000x1) S5000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .bf16 = 32 ∨ (Rect.block (s := S100000x32) S5000x32.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S5000x32_S32x32_0_0_1_1_n_n : DotDims S5000x32 S5000x32 S32x32 where
  lhsContracting := [0]
  rhsContracting := [0]
  lhsNonContracting := [1]
  rhsNonContracting := [1]
  lhsBatch := []
  rhsBatch := []
  wf := dot_S5000x32_S5000x32_S32x32_0_0_1_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x1_S32x1_1_0_0_1_n_n : DotDims S32x32 S32x1 S32x1 where
  lhsContracting := [1]
  rhsContracting := [0]
  lhsNonContracting := [0]
  rhsNonContracting := [1]
  lhsBatch := []
  rhsBatch := []
  wf := dot_S32x32_S32x1_S32x1_1_0_0_1_n_n_wf

abbrev win0_0 : Pipeline.Window sig grid0 :=
  Pipeline.Window.ofSpec (Memref.whole main_v27) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64_0) S32x32.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64_1) S1x32.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S1x128 : Shape := ⟨2, ![1, 128]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S32x32 : Shape := ⟨2, ![32, 32]⟩
abbrev S32x64 : Shape := ⟨2, ![32, 64]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128, .f32⟩
  | 5 => ⟨S128, .f32⟩
  | 6 => ⟨S128x64, .f32⟩
  | 7 => ⟨S64, .f32⟩
  | 8 => ⟨S64x32, .f32⟩
  | 9 => ⟨S32, .f32⟩
  | 10 => ⟨S64x32, .f32⟩
  | 11 => ⟨S32, .f32⟩
  | 12 => ⟨S32x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S100000x64, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S3200000, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x64, .f32⟩
  | 62 => ⟨S3200000x1, .f32⟩
  | 63 => ⟨S3200000x64, .f32⟩
  | 64 => ⟨S3200000x64, .f32⟩
  | 65 => ⟨S_, .f32⟩
  | 66 => ⟨S100000x64, .f32⟩
  | 67 => ⟨S3200000x1, .i32⟩
  | 68 => ⟨S100000x64, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x32, .f32⟩
  | 81 => ⟨S_, .f32⟩
  | 82 => ⟨S100000, .f32⟩
  | 83 => ⟨S3200000x1, .i32⟩
  | 84 => ⟨S100000, .f32⟩
  | 85 => ⟨S_, .f32⟩
  | 86 => ⟨S100000, .f32⟩
  | 87 => ⟨S100000, .f32⟩
  | 88 => ⟨S100000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000, .f32⟩
  | 107 => ⟨S3200000, .f32⟩
  | 108 => ⟨S3200000, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x32, .f32⟩
  | 118 => ⟨S3200000x1, .f32⟩
  | 119 => ⟨S3200000x32, .f32⟩
  | 120 => ⟨S3200000x32, .f32⟩
  | 121 => ⟨S_, .f32⟩
  | 122 => ⟨S100000x32, .f32⟩
  | 123 => ⟨S3200000x1, .i32⟩
  | 124 => ⟨S100000x32, .f32⟩
  | 125 => ⟨S100000, .f32⟩
  | 126 => ⟨S100000x1, .f32⟩
  | 127 => ⟨S100000x32, .f32⟩
  | _ => ⟨S100000x128, .f32⟩

abbrev hbmTy0_1 (i : Nat) : BufTy := match i % 128 with
  | 0 => ⟨S100000x32, .f32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S_, .f32⟩
  | 9 => ⟨S32x32, .f32⟩
  | 10 => ⟨S100000x1, .i32⟩
  | 11 => ⟨S32x32, .f32⟩
  | 12 => ⟨S_, .f32⟩
  | 13 => ⟨S100000, .f32⟩
  | 14 => ⟨S_, .f32⟩
  | 15 => ⟨S32, .f32⟩
  | 16 => ⟨S100000x1, .i32⟩
  | 17 => ⟨S32, .f32⟩
  | 18 => ⟨S_, .f32⟩
  | 19 => ⟨S32, .f32⟩
  | 20 => ⟨S32, .f32⟩
  | 21 => ⟨S32x1, .f32⟩
  | 22 => ⟨S32x32, .f32⟩
  | 23 => ⟨S32x32, .f32⟩
  | 24 => ⟨S32x64, .f32⟩
  | 25 => ⟨S32x32, .f32⟩
  | 26 => ⟨S1x32, .f32⟩
  | 27 => ⟨S32x32, .f32⟩
  | 28 => ⟨S32x32, .f32⟩
  | 29 => ⟨S_, .f32⟩
  | 30 => ⟨S32x32, .f32⟩
  | 31 => ⟨S32x32, .f32⟩
  | 32 => ⟨S32x1, .f32⟩
  | 33 => ⟨S1x1, .f32⟩
  | 34 => ⟨S32x1, .f32⟩
  | 35 => ⟨S32x1, .f32⟩
  | 36 => ⟨S32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_9 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_13 : Ref sig .tc := ⟨.hbm, 109, rfl⟩
abbrev main_v78 : Ref sig .tc := ⟨.hbm, 110, rfl⟩
abbrev main_v79 : Ref sig .tc := ⟨.hbm, 111, rfl⟩
abbrev main_c_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call1_cst : Ref sig .tc := ⟨.hbm, 133, rfl⟩
abbrev main_call1_v0 : Ref sig .tc := ⟨.hbm, 134, rfl⟩
abbrev main_v99 : Ref sig .tc := ⟨.hbm, 135, rfl⟩
abbrev main_cst_16 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_v103 : Ref sig .tc := ⟨.hbm, 141, rfl⟩
abbrev main_cst_18 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_19 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_call2_cst : Ref sig .tc := ⟨.hbm, 157, rfl⟩
abbrev main_call2_v0 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32x32 : S_.BroadcastsInDim S32x32 (![] : Fin 0 → Fin S32x32.rank)
  bcast_S_S32 : S_.BroadcastsInDim S32 (![] : Fin 0 → Fin S32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  concatenates_S32x32_S32x32_S32x64_d1 : Shape.Concatenates [S32x32, S32x32] S32x64 1
  bcast_S1x32_S32x32_0_1 : S1x32.BroadcastsInDim S32x32 (![0, 1] : Fin 2 → Fin S32x32.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S32x32_S100000x1_S100000x32_1_0_0_1_wf : ScatterDims.WF S32x32 S100000x1 S100000x32 [1] [0] [0] 1
  scatter_S32_S100000x1_S100000_n_0_0_1_wf : ScatterDims.WF S32 S100000x1 S100000 [] [0] [0] 1
  dot_S32x64_S64x32_S32x32_1_0_0_1_n_n_wf : DotDims.WF S32x64 S64x32 S32x32 [1] [0] [0] [1] [] []
  dot_S32x32_S32x1_S32x1_1_0_0_1_n_n_wf : DotDims.WF S32x32 S32x1 S32x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S32x32_S100000x1_S100000x32_1_0_0_1 : ScatterDims S32x32 S100000x1 S100000x32 where
  updateWindowDims := [1]
  insertedWindowDims := [0]
  scatterDimsToOperandDims := [0]
  indexVectorDim := 1
  wf := scatter_S32x32_S100000x1_S100000x32_1_0_0_1_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x1_S32x1_1_0_0_1_n_n : DotDims S32x32 S32x1 S32x1 where
  lhsContracting := [1]
  rhsContracting := [0]
  lhsNonContracting := [0]
  rhsNonContracting := [1]
  lhsBatch := []
  rhsBatch := []
  wf := dot_S32x32_S32x1_S32x1_1_0_0_1_n_n_wf

class Facts : Prop extends Facts₀ where

variable [Facts]
-- ==== Proof.K.Reg0.lean ====
import proofs.«426907_j42056319762623_3_alg».proof.Proof.Gen.Kernel.Launch
import proofs.«426907_j42056319762623_3_alg».proof.Proof.Gen.Kernel.Skeleton
import proofs.«426907_j42056319762623_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_4 (xMean xDev : Vec F S1x128 .f32) (xRows : Vec F S5000x128 .f32) (xW : Vec F S128x64 .f32) : Vec F S5000x64 .bf16 :=
  View.canon [⟨.unit _ _ inb_S5000x64_S5000x64_0_0, k0_pay1 (View.ld xRows (.unit _ _ inb_S5000x128_S5000x128_0_0))
    (View.ld xMean (.unit _ _ inb_S1x128_S1x128_0_0)) (View.ld xDev (.unit _ _ inb_S1x128_S1x128_0_0)) (View.ld xW (.unit _ _ inb_S128x64_S128x64_0_0))⟩]

/-- The one store covers the output, so what it leaves is `out0_4` of the inputs whatever the output held. -/
theorem sound_kernel0 {c : Dev nD} {E i arg1 arg2 arg3 arg4 arg5 harg1 harg2 harg3 harg4 harg5 x0 x1 x2 x3 d} {K : PUnit → sProp 𝕄} :
    iprop(owns c.tc arg5 fullShare d ∗ owns c.tc arg1 fullShare x0 ∗ owns c.tc arg2 fullShare x1 ∗ owns c.tc arg3 fullShare x2
        ∗ owns c.tc arg4 fullShare x3
        ∗ (iprop(owns c.tc arg5 fullShare (out0_4 x0 x1 x2 x3) ∗ owns c.tc arg1 fullShare x0 ∗ owns c.tc arg2 fullShare x1
            ∗ owns c.tc arg3 fullShare x2 ∗ owns c.tc arg4 fullShare x3) -∗ K ⟨⟩))
      ⊢ wp frame (wpE (defs₀ (F := F)) Variants.none c none) E (cc0__linear_norm_kernel i arg1 harg1 arg2 harg2 arg3 harg3 arg4 harg4 arg5 harg5) K := by
  simp only [cc0__linear_norm_kernel_eq_skeleton]; unfold cc0__linear_norm_kernel_skel owns
  iintro ⟨⟨%f4, -, H4⟩, ⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H4]
  · iexists _; isplitr; swap; · iexact H4
    ipureintro; exact View.read_writes_eq_canon _ _ _ (View.cover_of_tiled _ S5000x64.size rfl)
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = out0_4 (iblk0 V c 0 t) (iblk0 V c 1 t) (iblk0 V c 2 t) (iblk0 V c 3 t) := by dsimp only [dat0]

/-- No input is written: what the body finds in one is what it leaves there. -/
theorem before0 (c : Dev nD) : ∀ w : Fin cfg0.W, (cfg0.win w).isOut = false → ∀ t d, (dat0 V c).before w t d = (dat0 V c).after w t
  | ⟨0, _⟩, h | ⟨1, _⟩, h | ⟨2, _⟩, h | ⟨3, _⟩, h => fun t d =>
    ((dat0 V c).before_in_eq_fetched _ h (fun _ => rfl) (fun _ _ _ => rfl) (fun _ => rfl) t d).trans rfl
  | ⟨4, _⟩, h => nomatch h

theorem body_obligation0 (c : Dev nD) : BodyObligation (dat0 (F := F) V c) (defs₀ (F := F)) Variants.none () Set.univ := fun t => by
  have b := before0 V c
  simp only [bigSep_W0, b 0 rfl, b 1 rfl, b 2 rfl, b 3 rfl]
  dsimp only [dat0]
  sl_whnfR [defs₀, Defs.onTc]
  iintro ⟨HΦ, Ho, ⟨%_, H0⟩, ⟨%_, H1⟩, ⟨%_, H2⟩, ⟨%_, H3⟩, %_, H4⟩
  iapply sound_kernel0
  iframe
  iintro ⟨H4, H0, H1, H2, H3⟩
  iframe
  iexact Ho

end Cert.Kernel.Hand

end
-- ==== Proof.K.Reg1.lean ====
import proofs.«426907_j42056319762623_3_alg».proof.Proof.Gen.Kernel.Launch
import proofs.«426907_j42056319762623_3_alg».proof.Proof.Gen.Kernel.Skeleton
import proofs.«426907_j42056319762623_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rAgg1 : Rect S5000x64 := Rect.unit (s := S5000x64) ![0, 0] S5000x64.size inb_S5000x64_S5000x64_0_0
abbrev rCol1 : Rect S5000x1 := Rect.unit (s := S5000x1) ![0, 0] S5000x1.size inb_S5000x1_S5000x1_0_0
abbrev rBias1 : Rect S1x64 := Rect.unit (s := S1x64) ![0, 0] S1x64.size inb_S1x64_S1x64_0_0
abbrev rWeight1 : Rect S64x32 := Rect.unit (s := S64x32) ![0, 0] S64x32.size inb_S64x32_S64x32_0_0
abbrev rOut1 : Rect S5000x32 := Rect.unit (s := S5000x32) ![0, 0] S5000x32.size inb_S5000x32_S5000x32_0_0

def out1_5 (xAgg : Vec F S5000x64 .f32) (xLin : Vec F S5000x64 .bf16) (xD : Vec F S5000x1 .f32) (xB : Vec F S1x64 .f32) (xW : Vec F S64x32 .f32) :
    Vec F S5000x32 .bf16 :=
  View.canon [⟨rOut1, k1_pay1 (View.ld xAgg rAgg1) (View.ld xD rCol1) (View.ld xLin rAgg1) (View.ld xB rBias1) (View.ld xW rWeight1)⟩]

/-- The body's one store covers the output block, so the block ends at the stored value whatever it held. -/
theorem sound_kernel1 {c : Dev nD} {E i arg1 arg2 arg3 arg4 arg5 arg6 harg1 harg2 harg3 harg4 harg5 harg6 x0 x1 x2 x3 x4 d}
    {K : PUnit → sProp 𝕄} :
    iprop(owns c.tc arg6 fullShare d ∗ owns c.tc arg1 fullShare x0 ∗ owns c.tc arg2 fullShare x1 ∗ owns c.tc arg3 fullShare x2
        ∗ owns c.tc arg4 fullShare x3 ∗ owns c.tc arg5 fullShare x4
        ∗ (iprop(owns c.tc arg6 fullShare (out1_5 x0 x1 x2 x3 x4) ∗ owns c.tc arg1 fullShare x0 ∗ owns c.tc arg2 fullShare x1
            ∗ owns c.tc arg3 fullShare x2 ∗ owns c.tc arg4 fullShare x3 ∗ owns c.tc arg5 fullShare x4) -∗ K ⟨⟩))
      ⊢ wp frame (wpE (defs₀ (F := F)) Variants.none c none) E
          (cc1__combine_linear_kernel i arg1 harg1 arg2 harg2 arg3 harg3 arg4 harg4 arg5 harg5 arg6 harg6) K := by
  simp only [cc1__combine_linear_kernel_eq_skeleton]; unfold cc1__combine_linear_kernel_skel owns
  iintro ⟨⟨%f5, -, H5⟩, ⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H5]
  · iexists _; isplitr; swap; · iexact H5
    ipureintro; exact View.read_writes_eq_canon _ _ _ (View.cover_of_tiled _ S5000x32.size rfl)
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- No input is written: what the body finds in one is what it leaves there. -/
theorem before1 (c : Dev nD) : ∀ w : Fin cfg1.W, (cfg1.win w).isOut = false → ∀ t d, (dat1 V c).before w t d = (dat1 V c).after w t
  | ⟨0, _⟩, h | ⟨1, _⟩, h | ⟨2, _⟩, h | ⟨3, _⟩, h | ⟨4, _⟩, h => fun t d =>
    ((dat1 V c).before_in_eq_fetched _ h (fun _ => rfl) (fun _ _ _ => rfl) (fun _ => rfl) t d).trans rfl
  | ⟨5, _⟩, h => nomatch h

theorem body_obligation1 (c : Dev nD) : BodyObligation (dat1 (F := F) V c) (defs₀ (F := F)) Variants.none () Set.univ := fun t => by
  have b := before1 V c
  simp only [bigSep_W1, b 0 rfl, b 1 rfl, b 2 rfl, b 3 rfl, b 4 rfl]
  dsimp only [dat1]
  sl_whnfR [defs₀, Defs.onTc]
  iintro ⟨HΦ, Ho, ⟨%_, H0⟩, ⟨%_, H1⟩, ⟨%_, H2⟩, ⟨%_, H3⟩, ⟨%_, H4⟩, %_, H5⟩
  iapply sound_kernel1
  iframe
  iintro ⟨H5, H0, H1, H2, H3, H4⟩
  iframe
  iexact Ho

end Cert.Kernel.Hand

end
-- ==== Proof.K.Reg2.lean ====
import proofs.«426907_j42056319762623_3_alg».proof.Proof.Gen.Kernel.Launch
import proofs.«426907_j42056319762623_3_alg».proof.Proof.Gen.Kernel.Skeleton
import proofs.«426907_j42056319762623_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)

theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

abbrev ms2_0 (t : Fin cfg2.N) : Memref sig .tc .vmem S5000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev scM2_0 : Memref sig .tc .vmem S32x32 .f32 := Memref.whole cc2_scratch0
abbrev scM2_1 : Memref sig .tc .vmem S1x32 .f32 := Memref.whole cc2_scratch1

/-- The rest of the invariant, beside the two accumulators. -/
def frame2 (c : Dev nD) : sProp 𝕄 :=
  iprop(Pipeline.scopedRestBut spec2 c [cc2_scratch0, cc2_scratch1] ∗ ∃ r, prngReg c r)

theorem PhiA2_eq (c : Dev nD) :
    (Pipeline.ΦA spec2 c : sProp 𝕄)
      = iprop((∃ d, owns (c : Thread nD τ) scM2_0 fullShare d) ∗ (∃ d, owns (c : Thread nD τ) scM2_1 fullShare d) ∗ frame2 (F := F) c) := by
  unfold Pipeline.ΦA frame2
  rw [Pipeline.scopedRest_split_of_list spec2 c [cc2_scratch0, cc2_scratch1] (by decide) (by decide)]
  simp only [scM2_0, scM2_1, owns_whole, bigSepL]
  refine BI.equiv_iff.mp ⟨?_, ?_⟩
  · change (iprop(((_ ∗ _) ∗ _) ∗ _) : sProp 𝕄) ⊢ _; iintro ⟨⟨⟨H0, H1⟩, Hr⟩, Hg⟩; iframe H0 H1 Hr Hg
  · change (_ : sProp 𝕄) ⊢ iprop(((_ ∗ _) ∗ _) ∗ _); iintro ⟨H0, H1, Hr, Hg⟩; iframe H0 H1 Hr Hg

theorem owns_unread (c : Dev nD) {sp : Space} {s : Shape} {e : EltTy} {m : Memref sig .tc sp s e} (h : m.IsWhole) (x : s.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  have := owns_intro (Ix := Unit) (Name := ℕ) (U := UR sig nD τ) (Lvl := ℕ) (c : Thread nD τ) m fullShare (h.unread x)
  rw [h.read_unread] at this; exact this

section Runs

variable (c : Dev nD) (i : grid2.Coords) (arg1 : Memref sig .tc .vmem S5000x1 .i32) (harg1 : arg1.IsWhole) (arg2 : Memref sig .tc .vmem S5000x32 .f32) (harg2 : arg2.IsWhole) (arg3 : Memref sig .tc .vmem S5000x32 .bf16) (harg3 : arg3.IsWhole) (arg4 : Memref sig .tc .vmem S5000x1 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole)

section First

set_option maxHeartbeats 1000000 in
noncomputable def kernelRun2_A (hc0 : cond2_0 i) (hc1 : ¬cond2_1 i) (x0 : Vec F S5000x1 .i32) (x1 : Vec F S5000x32 .f32) (x2 : Vec F S5000x32 .bf16) (x3 : Vec F S5000x1 .f32) (x4 : Vec F S1x32 .f32) :
    Σ' (LS0 : List (View.Piece (Elt F) S32x32 .f32)), { LS1 : List (View.Piece (Elt F) S1x32 .f32) //
      ∀ (xi5 : Vec F S32x32 .f32) (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    isplitl [H5]; · iapply owns_unread c harg6; iexact H5
    isplitl [H6]; · iapply owns_unread c harg7; iexact H6
    isplitl [HS0]; · iexists _; iexact HS0
    iexists _; iexact HS1

variable (hc0 : cond2_0 i) (hc1 : ¬cond2_1 i) (x0 : Vec F S5000x1 .i32) (x1 : Vec F S5000x32 .f32) (x2 : Vec F S5000x32 .bf16) (x3 : Vec F S5000x1 .f32) (x4 : Vec F S1x32 .f32)

theorem scover2_A_0 (y : S32x32.Idx) : ∃ pc ∈ (kernelRun2_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL _ S32x32.size (by sl_kernel_rfl) y
theorem scover2_A_1 (y : S1x32.Idx) : ∃ pc ∈ (kernelRun2_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL _ S1x32.size (by sl_kernel_rfl) y

end First

section Middle

set_option maxHeartbeats 1000000 in
noncomputable def kernelRun2_B (hc0 : ¬cond2_0 i) (hc1 : ¬cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32) :
    Σ' (LS0 : List (View.Piece (Elt F) S32x32 .f32)), { LS1 : List (View.Piece (Elt F) S1x32 .f32) //
      ∀ (xi5 : Vec F S32x32 .f32) (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    isplitl [H5]; · iapply owns_unread c harg6; iexact H5
    isplitl [H6]; · iapply owns_unread c harg7; iexact H6
    isplitl [HS0]; · iexists _; iexact HS0
    iexists _; iexact HS1

variable (hc0 : ¬cond2_0 i) (hc1 : ¬cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32)

theorem scover2_B_0 (y : S32x32.Idx) : ∃ pc ∈ (kernelRun2_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S32x32.size (by sl_kernel_rfl) y
theorem scover2_B_1 (y : S1x32.Idx) : ∃ pc ∈ (kernelRun2_B c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1x32.size (by sl_kernel_rfl) y

end Middle

section Last

set_option maxHeartbeats 1000000 in
noncomputable def kernelRun2_C (hc0 : ¬cond2_0 i) (hc1 : cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32) :
    Σ' (L5 : List (View.Piece (Elt F) S32x32 .f32)) (L6 : List (View.Piece (Elt F) S1x32 .f32)) (LS0 : List (View.Piece (Elt F) S32x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    isplitl [H5]; · iexists _; iexact H5
    isplitl [H6]; · iexists _; iexact H6
    isplitl [HS0]; · iexists _; iexact HS0
    iexists _; iexact HS1

variable (hc0 : ¬cond2_0 i) (hc1 : cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32)

theorem cover2_C_5 (y : S32x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S32x32.size (by sl_kernel_rfl) y
theorem cover2_C_6 (y : S1x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1x32.size (by sl_kernel_rfl) y
theorem scover2_C_0 (y : S32x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S32x32.size (by sl_kernel_rfl) y
theorem scover2_C_1 (y : S1x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL _ S1x32.size (by sl_kernel_rfl) y

end Last

end Runs

def idle2_5 : Vec F S32x32 .f32 := View.canon ([] : List (View.Piece (Elt F) S32x32 .f32))
def idle2_6 : Vec F S1x32 .f32 := View.canon ([] : List (View.Piece (Elt F) S1x32 .f32))

section Point

variable (c : Dev nD) (t : Fin cfg2.N)

/-- The three cases' runs at point `t`, the last two over what the accumulators held. -/
noncomputable abbrev run2_A (hc0 : cond2_0 (grid2.coords t)) (hc1 : ¬cond2_1 (grid2.coords t)) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t)
noncomputable abbrev run2_B (hc0 : ¬cond2_0 (grid2.coords t)) (hc1 : ¬cond2_1 (grid2.coords t)) (a : Vec F S32x32 .f32 × Vec F S1x32 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) a.1 a.2
noncomputable abbrev run2_C (hc0 : ¬cond2_0 (grid2.coords t)) (hc1 : cond2_1 (grid2.coords t)) (a : Vec F S32x32 .f32 × Vec F S1x32 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) a.1 a.2

end Point

/-- What a run leaves: in the two accumulators; in the two outputs and the two accumulators. -/
abbrev canon2 {P : List (View.Piece (Elt F) S32x32 .f32) → List (View.Piece (Elt F) S1x32 .f32) → Prop}
    (r : Σ' LS0, { LS1 // P LS0 LS1 }) : Vec F S32x32 .f32 × Vec F S1x32 .f32 := (View.canon r.1, View.canon r.2.1)
abbrev canon4 {P : List (View.Piece (Elt F) S32x32 .f32) → List (View.Piece (Elt F) S1x32 .f32) → List (View.Piece (Elt F) S32x32 .f32) → List (View.Piece (Elt F) S1x32 .f32) → Prop}
    (r : Σ' L5 L6 LS0, { LS1 // P L5 L6 LS0 LS1 }) : Vec F S32x32 .f32 × Vec F S1x32 .f32 × Vec F S32x32 .f32 × Vec F S1x32 .f32 :=
  (View.canon r.1, View.canon r.2.1, View.canon r.2.2.1, View.canon r.2.2.2.1)

def outsAt2 (c : Dev nD) : (n : ℕ) → n < cfg2.N → Vec F S32x32 .f32 × Vec F S1x32 .f32 × Vec F S32x32 .f32 × Vec F S1x32 .f32
  | 0, hn => (idle2_5, idle2_6, canon2 (run2_A V c ⟨0, hn⟩ ((hcond2_0 _).mpr rfl) fun h => absurd ((hcond2_1 _).mp h) (Nat.zero_ne_add_one 18)))
  | n + 1, hn =>
    if h1 : n + 1 = 19 then
      canon4 (run2_C V c ⟨n + 1, hn⟩ (fun h => Nat.succ_ne_zero n ((hcond2_0 _).mp h)) ((hcond2_1 _).mpr h1) (outsAt2 c n (Nat.lt_of_succ_lt hn)).2.2)
    else
      (idle2_5, idle2_6, canon2 (run2_B V c ⟨n + 1, hn⟩ (fun h => Nat.succ_ne_zero n ((hcond2_0 _).mp h)) (fun h => h1 ((hcond2_1 _).mp h)) (outsAt2 c n (Nat.lt_of_succ_lt hn)).2.2))

/-- The invariant before position `n`: what the region is entered with, then both accumulators at what the point before left. -/
def PhiS2 (c : Dev nD) : (n : ℕ) → n ≤ cfg2.N → sProp 𝕄
  | 0, _ => Pipeline.ΦA spec2 c
  | n + 1, hn => iprop(owns (c : Thread nD τ) scM2_0 fullShare (outsAt2 V c n hn).2.2.1 ∗ owns (c : Thread nD τ) scM2_1 fullShare (outsAt2 V c n hn).2.2.2 ∗ frame2 c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem Phi2_eq (c : Dev nD) (t : Fin (cfg2.N + 1)) : (dat2 V c).Φ t = PhiS2 V c t.val (Nat.le_of_lt_succ t.isLt) := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

/-- Pieces that cover a memref, once written, are owned at their canonical reading. -/
theorem owns_writes (c : Dev nD) {sp : Space} {s : Shape} {e : EltTy} (m : Memref sig .tc sp s e) (L : List (View.Piece (Elt F) s e))
    (hL : ∀ y : s.Idx, ∃ pc ∈ L, y ∈ pc.1.set) :
    (iprop(∃ f, m.view.loc (c : Thread nD τ) ↦[m.view.set]{fullShare} m.view.writes (Elt F) f L) : sProp 𝕄) ⊢ owns (c : Thread nD τ) m fullShare (View.canon L) := by
  unfold owns; iintro ⟨%f, H⟩; iexists m.view.writes (Elt F) f L; isplitr
  · ipureintro; exact View.read_writes_eq_canon _ _ _ hL
  iexact H

set_option maxHeartbeats 4800000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d))
      ∗ (∃ d, owns (c : Thread nD τ) (ms2_4 t) fullShare ((dat2 V c).before 4 t d))
      ∗ (∃ d, owns (c : Thread nD τ) (ms2_5 t) fullShare ((dat2 V c).before 5 t d))
      ∗ (∃ d, owns (c : Thread nD τ) (ms2_6 t) fullShare ((dat2 V c).before 6 t d)))
    ⊢ wp frame (wpE (defs₀ (F := F)) Variants.none c none) Set.univ (bodyAt2 t) (fun _ => iprop((dat2 V c).Φ t.succ ∗ (dat2 V c).owesAt () t.succ
      ∗ owns (c : Thread nD τ) (ms2_0 t) fullShare (iblk2 V c 0 t)
      ∗ owns (c : Thread nD τ) (ms2_1 t) fullShare (iblk2 V c 1 t)
      ∗ owns (c : Thread nD τ) (ms2_2 t) fullShare (iblk2 V c 2 t)
      ∗ owns (c : Thread nD τ) (ms2_3 t) fullShare (iblk2 V c 3 t)
      ∗ owns (c : Thread nD τ) (ms2_4 t) fullShare (iblk2 V c 4 t)
      ∗ (dat2 V c).leavesExact 5 t ∗ (dat2 V c).leavesExact 6 t)) := by
  unfold bodyAt2
  simp only [before2_0, before2_1, before2_2, before2_3, before2_4, Phi2_eq, Fin.coe_castSucc, Fin.val_succ]
  rw [show (dat2 V c).owesAt () t.succ = (dat2 V c).owesAt () t.castSucc from rfl]
  obtain ⟨_ | n, hn⟩ := t
  · have hc0 : cond2_0 (grid2.coords ⟨0, hn⟩) := (hcond2_0 _).mpr rfl
    have hc1 : ¬cond2_1 (grid2.coords ⟨0, hn⟩) := fun h => absurd ((hcond2_1 _).mp h) (Nat.zero_ne_add_one 18)
    simp only [PhiS2, outsAt2]
    rw [PhiA2_eq]
    rw [Dat.leavesExact_idle (dat2 V c) 5 _ (idleAt2_5 _ hc1) (noFlush2_5 _ hc1), Dat.leavesExact_idle (dat2 V c) 6 _ (idleAt2_6 _ hc1) (noFlush2_6 _ hc1)]
    iintro ⟨⟨HS0, HS1, Hfr⟩, Ho, ⟨%d0, H0⟩, ⟨%d1, H1⟩, ⟨%d2, H2⟩, ⟨%d3, H3⟩, ⟨%d4, H4⟩, ⟨%d5, H5⟩, ⟨%d6, H6⟩⟩
    iapply ((run2_A V c _ hc0 hc1).2.2 _ _ Set.univ _)
    iframe H0 H1 H2 H3 H4 H5 H6 HS0 HS1
    iintro ⟨H0, H1, H2, H3, H4, H5, H6, HS0, HS1⟩
    isplitl [HS0 HS1 Hfr]
    · isplitl [HS0]; · iapply owns_writes c _ _ (fun y => scover2_A_0 (y := y) ..); iexact HS0
      isplitl [HS1]; · iapply owns_writes c _ _ (fun y => scover2_A_1 (y := y) ..); iexact HS1
      iexact Hfr
    iframe Ho H0 H1 H2 H3 H4
    isplitl [H5]; · iexists _; iexact H5
    iexists _; iexact H6
  · have hc0 : ¬cond2_0 (grid2.coords ⟨n + 1, hn⟩) := fun h => Nat.succ_ne_zero n ((hcond2_0 _).mp h)
    by_cases h1 : n + 1 = 19
    · have hc1 : cond2_1 (grid2.coords ⟨n + 1, hn⟩) := (hcond2_1 _).mpr h1
      rw [show (dat2 V c).leavesExact 5 ⟨n + 1, hn⟩ = owns (c : Thread nD τ) (ms2_5 ⟨n + 1, hn⟩) fullShare ((dat2 V c).after 5 ⟨n + 1, hn⟩) from by
        unfold Dat.leavesExact; rw [liveAt2_5 ⟨n + 1, hn⟩ hc1], after2_5]
      rw [show (dat2 V c).leavesExact 6 ⟨n + 1, hn⟩ = owns (c : Thread nD τ) (ms2_6 ⟨n + 1, hn⟩) fullShare ((dat2 V c).after 6 ⟨n + 1, hn⟩) from by
        unfold Dat.leavesExact; rw [liveAt2_6 ⟨n + 1, hn⟩ hc1], after2_6]
      simp only [PhiS2, outsAt2, dif_pos h1]
      iintro ⟨⟨HS0, HS1, Hfr⟩, Ho, ⟨%d0, H0⟩, ⟨%d1, H1⟩, ⟨%d2, H2⟩, ⟨%d3, H3⟩, ⟨%d4, H4⟩, ⟨%d5, H5⟩, ⟨%d6, H6⟩⟩
      iapply ((run2_C V c _ hc0 hc1 _).2.2.2.2 Set.univ _)
      iframe H0 H1 H2 H3 H4 HS0 HS1
      isplitl [H5]; · iexists _; iexact H5
      isplitl [H6]; · iexists _; iexact H6
      iintro ⟨H0, H1, H2, H3, H4, H5, H6, HS0, HS1⟩
      isplitl [HS0 HS1 Hfr]
      · isplitl [HS0]; · iapply owns_writes c _ _ (fun y => scover2_C_0 (y := y) ..); iexact HS0
        isplitl [HS1]; · iapply owns_writes c _ _ (fun y => scover2_C_1 (y := y) ..); iexact HS1
        iexact Hfr
      iframe Ho H0 H1 H2 H3 H4
      isplitl [H5]; · iapply owns_writes c _ _ (fun y => cover2_C_5 (y := y) ..); iexact H5
      iapply owns_writes c _ _ (fun y => cover2_C_6 (y := y) ..); iexact H6
    · have hc1 : ¬cond2_1 (grid2.coords ⟨n + 1, hn⟩) := fun h => h1 ((hcond2_1 _).mp h)
      simp only [PhiS2, outsAt2, dif_neg h1]
      rw [Dat.leavesExact_idle (dat2 V c) 5 _ (idleAt2_5 _ hc1) (noFlush2_5 _ hc1), Dat.leavesExact_idle (dat2 V c) 6 _ (idleAt2_6 _ hc1) (noFlush2_6 _ hc1)]
      iintro ⟨⟨HS0, HS1, Hfr⟩, Ho, ⟨%d0, H0⟩, ⟨%d1, H1⟩, ⟨%d2, H2⟩, ⟨%d3, H3⟩, ⟨%d4, H4⟩, ⟨%d5, H5⟩, ⟨%d6, H6⟩⟩
      iapply ((run2_B V c _ hc0 hc1 _).2.2 _ _ Set.univ _)
      iframe H0 H1 H2 H3 H4 H5 H6 HS0 HS1
      iintro ⟨H0, H1, H2, H3, H4, H5, H6, HS0, HS1⟩
      isplitl [HS0 HS1 Hfr]
      · isplitl [HS0]; · iapply owns_writes c _ _ (fun y => scover2_B_0 (y := y) ..); iexact HS0
        isplitl [HS1]; · iapply owns_writes c _ _ (fun y => scover2_B_1 (y := y) ..); iexact HS1
        iexact Hfr
      iframe Ho H0 H1 H2 H3 H4
      isplitl [H5]; · iexists _; iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Idealize.SL.BI.Entails.refl _

/-- After the last point the accumulators' contents are forgotten. -/
theorem hout2 (c : Dev nD) : (dat2 V c).Φ (Fin.last cfg2.N) ⊢ (Pipeline.ΦA spec2 c : sProp 𝕄) := by
  rw [PhiA2_eq]
  show iprop(_ ∗ _ ∗ frame2 c) ⊢ _
  iintro ⟨HS0, HS1, Hfr⟩
  isplitl [HS0]; · iexists _; iexact HS0
  isplitl [HS1]; · iexists _; iexact HS1
  iexact Hfr

end Region2

end Cert.Kernel.Hand

end
-- ==== Proof.K.Fold.lean ====
import proofs.«426907_j42056319762623_3_alg».proof.Proof.K.Reg0
import proofs.«426907_j42056319762623_3_alg».proof.Proof.K.Reg1
import proofs.«426907_j42056319762623_3_alg».proof.Proof.K.Reg2

noncomputable section

namespace Cert.Kernel.Hand

open Cert.Kernel Cert.Kernel.Gen
open Idealize.ShloMosaic Idealize.ShloMosaic.TcCoe
open Idealize.ShloMosaic.Pipeline (Dat)

variable {F : FTy → Type} [FloatOps F]

variable (m : (ℓ : Loc nD τ sig) → Buf (Elt F) ℓ) (ρ : Dev nD → PrngReg)

/-- The buffers' contents between the entry function's items, folded from the launch memory. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)
abbrev V7 : (c : Dev nD) → (b : Ref sig .tc) → Buf (Elt F) ((c : Thread nD τ).loc b) := fun c b => W7 m ρ c b
abbrev V8 : (c : Dev nD) → (b : Ref sig .tc) → Buf (Elt F) ((c : Thread nD τ).loc b) := fun c b => W8 m ρ c b
abbrev V9 : (c : Dev nD) → (b : Ref sig .tc) → Buf (Elt F) ((c : Thread nD τ).loc b) := fun c b => W9 m ρ c b

end Cert.Kernel.Hand

end
-- ==== Proof.K.Run.lean ====
import proofs.«426907_j42056319762623_3_alg».proof.Proof.K.Fold
import proofs.«426907_j42056319762623_3_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region `p`'s proof data, at its entry contents. -/
def pdats : (p : Fin 3) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
/-- The contents region `p` is entered from and those it leaves. -/
def Wi : Fin 3 → Dev nD → Valuation τ sig (Elt F)
  | ⟨0, _⟩ => W1 m ρ
  | ⟨1, _⟩ => W3 m ρ
  | ⟨2, _⟩ => W5 m ρ
def Wo : Fin 3 → Dev nD → Valuation τ sig (Elt F)
  | ⟨0, _⟩ => W2 m ρ
  | ⟨1, _⟩ => W4 m ρ
  | ⟨2, _⟩ => W6 m ρ
theorem launch : ∀ p, Pipeline.LaunchFacts (nD := nD) (τ := τ) cfgs p
  | ⟨0, _⟩ => launch0
  | ⟨1, _⟩ => launch1
  | ⟨2, _⟩ => launch2
theorem obligation : ∀ p c, BodyObligation (pdats m ρ p c) (defs₀ (F := F)) Variants.none () Set.univ
  | ⟨0, _⟩ => body_obligation0 (V1 m ρ)
  | ⟨1, _⟩ => body_obligation1 (V3 m ρ)
  | ⟨2, _⟩ => body_obligation2 (V5 m ρ)
theorem ΦA_in : ∀ p c, (Pipeline.ΦA (cfgs p).spec c : sProp 𝕄) ⊢ (pdats m ρ p c).Φ 0
  | ⟨0, _⟩, _ => .rfl
  | ⟨1, _⟩, _ => .rfl
  | ⟨2, _⟩, c => hin2 (V5 m ρ) c
theorem ΦA_out : ∀ p c, (pdats m ρ p c).Φ (Fin.last _) ⊢ (Pipeline.ΦA (cfgs p).spec c : sProp 𝕄)
  | ⟨0, _⟩, _ => .rfl
  | ⟨1, _⟩, _ => .rfl
  | ⟨2, _⟩, c => hout2 (V5 m ρ) c
theorem A_eq : ∀ p c w, (pdats m ρ p c).A w = Wi m ρ p c (Proc.devRef .tc (Pipeline.arrRef (cfgs p).spec w))
  | ⟨0, _⟩, _, _ => rfl
  | ⟨1, _⟩, _, _ => rfl
  | ⟨2, _⟩, _, _ => rfl
theorem Wo_arr : ∀ p c w, Wo m ρ p c (Proc.devRef .tc (Pipeline.arrRef (cfgs p).spec w)) = (pdats m ρ p c).arrAt w (cfgs p).N
  | ⟨0, _⟩ => W2_arr m ρ
  | ⟨1, _⟩ => W4_arr m ρ
  | ⟨2, _⟩ => W6_arr m ρ
theorem Wo_of_ne : ∀ p c b, (∀ w, Pipeline.arrRef (cfgs p).spec w ≠ b) → Wo m ρ p c (Proc.devRef .tc b) = Wi m ρ p c (Proc.devRef .tc b)
  | ⟨0, _⟩ => W2_of_ne m ρ
  | ⟨1, _⟩ => W4_of_ne m ρ
  | ⟨2, _⟩ => W6_of_ne m ρ
theorem share_eq : ∀ p c w, (pdats m ρ p c).share w = fullShare
  | ⟨0, _⟩, _ => Dat.share_full _ fun _ => rfl
  | ⟨1, _⟩, _ => Dat.share_full _ fun _ => rfl
  | ⟨2, _⟩, _ => Dat.share_full _ fun _ => rfl

abbrev 𝒱₀ : Variants := Variants.none
abbrev L : GSem nD τ sig → Finset Unit := fun _ => ∅
abbrev lv : GSem nD τ sig → Unit → ℕ := fun _ _ => 0
/-- Core `c` owing nothing. -/
abbrev O (c : Dev nD) : sProp 𝕄 := iprop(∃ W, owes (c : Thread nD τ) (0 : CellTallies nD τ sig Unit) W)
/-- What rides beside the buffers through every segment. -/
abbrev R (c : Dev nD) : sProp 𝕄 := iprop((∃ r, prngReg c r) ∗ O c)
/-- Core `c` between two segments: every buffer at `W c`, beside `R c`. -/
abbrev T (W : Dev nD → Valuation τ sig (Elt F)) (c : Dev nD) : sProp 𝕄 :=
  iprop(StableHlo.held (c : Thread nD τ) (Pipeline.ucRefs τ sig) (W c) ∗ R c)

theorem owes_in (p : Fin 3) (c : Dev nD) : (O c : sProp 𝕄) ⊢ (pdats m ρ p c).owesAt () 0 := by
  fin_cases p <;>
  · unfold Pipeline.Dat.owesAt Pipeline.owesWithin
    iintro ⟨%W, HO⟩; iexists W; isplitr; · ipureintro; exact fun _ _ => Or.inl trivial
    iexact HO
theorem owes_out (p : Fin 3) (c : Dev nD) : (pdats m ρ p c).owesAt () (Fin.last _) ⊢ (O c : sProp 𝕄) := by
  fin_cases p <;>
  · unfold Pipeline.Dat.owesAt Pipeline.owesWithin
    iintro ⟨%W, -, HO⟩; iexists W; iexact HO

abbrev Vi (p : Fin 3) (c : Dev nD) (b : Ref sig .tc) : Buf (Elt F) ((c : Thread nD τ).loc b) := Wi m ρ p c b
abbrev Vo (p : Fin 3) (c : Dev nD) (b : Ref sig .tc) : Buf (Elt F) ((c : Thread nD τ).loc b) := Wo m ρ p c b

/-- Region `p` as a segment from `Wi p` to `Wo p`: its windows' arrays split out of the buffers and put back. -/
def reg (p : Fin 3) : Pipeline.RegionSeg (pcfgs (F := F)) adm (pdats m ρ) () defs₀ 𝒱₀ L lv p where
  win := (launch p).win.to₀
  block_pos := (launch p).block_pos
  stage_whole := (launch p).stage_whole
  K := PEmpty
  osem k := k.elim
  ho := Pipeline.OwnSemFacts.none _
  hbody c := (obligation m ρ p c).loose
  hwaits := Pipeline.hwaits_of_owed_zero _ _ _ _ L lv p (by fin_cases p <;> exact fun _ _ => rfl)
  pre := T (Wi m ρ p)
  post := T (Wo m ρ p)
  X c := iprop(∃ r, prngReg c r)
  Y c := iprop(∃ r, prngReg c r)
  Z c := Pipeline.unscopedRest (Ix := Unit) (Name := ℕ) (U := UR sig nD τ) (Lvl := ℕ) (cfgs p).spec c (Vi m ρ p c)
  hentry c := by
    rw [Pipeline.ownSems0_none]
    have hsplit := Pipeline.arrays_of_unscopedBufs (p := p) (pcfgs (F := F)) adm (pdats m ρ) (launch p).win (launch p).arr_whole c
      (share_eq m ρ p c) (Vi m ρ p c) (A_eq m ρ p c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iapply owes_in m ρ p c; iexact HO
  hin c := by
    refine .trans ?_ (ΦA_in m ρ p c)
    unfold Pipeline.ΦA
    iintro ⟨Hp, -, Hr⟩
    iframe
  hout c := by
    rw [Pipeline.ownSems0_none]
    refine (ΦA_out m ρ p c).trans ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      (launch p).win (launch p).arr_whole c (pdats m ρ) (share_eq m ρ p c) (Vi m ρ p c) (Vo m ρ p c) ((pdats m ρ p c).arrAt · (cfgs p).N)
      (fun w => (Wo_arr m ρ p c w).symm) fun b hb => Wo_of_ne m ρ p c b fun w e => hb (Finset.mem_image.mpr ⟨w, Finset.mem_univ _, e⟩)
    rw [Pipeline.unscopedBufs_held] at hjoin
    iintro ⟨Ha, HO, HY, Hrest⟩
    imodintro
    isplitl [Ha Hrest]; · iapply hjoin; iframe
    isplitl [HY]; · iexact HY
    iapply owes_out m ρ p c; iexact HO

/-- A host stretch as a segment: its operations applied to the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

abbrev segs : List (Pipeline.Seg (pcfgs (F := F)) adm (pdats m ρ) () defs₀ 𝒱₀ L lv) :=
  [ .host (hseg hostOps0 hostOps0_sub hostOps0_fresh (W0 m ρ)),
    .region (reg m ρ 0),
    .host (hseg hostOps1 hostOps1_sub hostOps1_fresh (W2 m ρ)),
    .region (reg m ρ 1),
    .host (hseg hostOps2 hostOps2_sub hostOps2_fresh (W4 m ρ)),
    .region (reg m ρ 2),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The launch over the nine segments, the last thread state read against the final memory. -/
theorem run : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      rw [BI.bigSep_emp_const]; iempintro)
    (T₀ := T (W0 m ρ))
    (Tₙ := fun c => iprop(StableHlo.held (c : Thread nD τ) (Pipeline.ucRefs τ sig) (W9 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- An input window's array never changes. -/
theorem Wo_kept (p : Fin 3) (c : Dev nD) (r : Ref sig .tc)
    (h : ∀ w, Pipeline.arrRef (cfgs p).spec w = r → ((cfgs p).win w).isOut = false) :
    Wo m ρ p c (Proc.devRef .tc r) = Wi m ρ p c (Proc.devRef .tc r) := by
  by_cases hw : ∃ w, Pipeline.arrRef (cfgs p).spec w = r
  · obtain ⟨w, rfl⟩ := hw
    exact (Wo_arr m ρ p c w).trans (((pdats m ρ p c).arrAt_in w (h w rfl) _).trans (A_eq m ρ p c w))
  · exact Wo_of_ne m ρ p c r fun w e => hw ⟨w, e⟩

theorem kept {mem : (ℓ : Loc nD τ sig) → Buf (Elt F) ℓ} {c : Dev nD}
    (hm : ∀ b ∈ Pipeline.ucRefs τ sig, mem (((c : Thread nD τ)).1, b) = W9 m ρ c b) (r : Ref sig .tc)
    (hu : ¬ (Proc.devRef .tc r : DevRef τ sig).isScoped)
    (hh : r ∉ hostOps0_W ∧ r ∉ hostOps1_W ∧ r ∉ hostOps2_W ∧ r ∉ hostOps3_W ∧ r ∉ hostOps3_1_W ∧ r ∉ hostOps3_2_W)
    (hr : ∀ p w, Pipeline.arrRef (cfgs p).spec w = r → ((cfgs p).win w).isOut = false) :
    mem ((c.tc : Thread nD τ).loc r) = m ((c.tc : Thread nD τ).loc r) :=
  calc mem ((c.tc : Thread nD τ).loc r)
    _ = W9 m ρ c (Proc.devRef .tc r) := hm _ (mem_uc r hu)
    _ = W8 m ρ c (Proc.devRef .tc r) := StableHlo.after_of_writes_sub hostOps3_2 _ hostOps3_2_writes hh.2.2.2.2.2
    _ = W7 m ρ c (Proc.devRef .tc r) := StableHlo.after_of_writes_sub hostOps3_1 _ hostOps3_1_writes hh.2.2.2.2.1
    _ = W6 m ρ c (Proc.devRef .tc r) := StableHlo.after_of_writes_sub hostOps3 _ hostOps3_writes hh.2.2.2.1
    _ = W5 m ρ c (Proc.devRef .tc r) := Wo_kept m ρ 2 c r (hr 2)
    _ = W4 m ρ c (Proc.devRef .tc r) := StableHlo.after_of_writes_sub hostOps2 _ hostOps2_writes hh.2.2.1
    _ = W3 m ρ c (Proc.devRef .tc r) := Wo_kept m ρ 1 c r (hr 1)
    _ = W2 m ρ c (Proc.devRef .tc r) := StableHlo.after_of_writes_sub hostOps1 _ hostOps1_writes hh.2.1
    _ = W1 m ρ c (Proc.devRef .tc r) := Wo_kept m ρ 0 c r (hr 0)
    _ = m ((c : Thread nD τ).loc r) := StableHlo.after_of_writes_sub hostOps0 _ hostOps0_writes hh.1

end Cert.Kernel.Hand

end
-- ==== Proof.KI.Reg0.lean ====
import proofs.«426907_j42056319762623_3_alg».proof.Proof.Gen.KernelIdeal.Launch
import proofs.«426907_j42056319762623_3_alg».proof.Proof.Gen.KernelIdeal.Skeleton
import proofs.«426907_j42056319762623_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_4 (xMean xDev : Vec F S1x128 .f32) (xRows : Vec F S5000x128 .f32) (xW : Vec F S128x64 .f32) : Vec F S5000x64 .bf16 :=
  View.canon [⟨.unit _ _ inb_S5000x64_S5000x64_0_0, k0_pay1 (View.ld xRows (.unit _ _ inb_S5000x128_S5000x128_0_0))
    (View.ld xMean (.unit _ _ inb_S1x128_S1x128_0_0)) (View.ld xDev (.unit _ _ inb_S1x128_S1x128_0_0)) (View.ld xW (.unit _ _ inb_S128x64_S128x64_0_0))⟩]

/-- The one store covers the output, so what it leaves is `out0_4` of the inputs whatever the output held. -/
theorem sound_kernel0 {c : Dev nD} {E i arg1 arg2 arg3 arg4 arg5 harg1 harg2 harg3 harg4 harg5 x0 x1 x2 x3 d} {K : PUnit → sProp 𝕄} :
    iprop(owns c.tc arg5 fullShare d ∗ owns c.tc arg1 fullShare x0 ∗ owns c.tc arg2 fullShare x1 ∗ owns c.tc arg3 fullShare x2
        ∗ owns c.tc arg4 fullShare x3
        ∗ (iprop(owns c.tc arg5 fullShare (out0_4 x0 x1 x2 x3) ∗ owns c.tc arg1 fullShare x0 ∗ owns c.tc arg2 fullShare x1
            ∗ owns c.tc arg3 fullShare x2 ∗ owns c.tc arg4 fullShare x3) -∗ K ⟨⟩))
      ⊢ wp frame (wpE (defs₀ (F := F)) Variants.none c none) E (cc0__linear_norm_kernel i arg1 harg1 arg2 harg2 arg3 harg3 arg4 harg4 arg5 harg5) K := by
  simp only [cc0__linear_norm_kernel_eq_skeleton]; unfold cc0__linear_norm_kernel_skel owns
  iintro ⟨⟨%f4, -, H4⟩, ⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H4]
  · iexists _; isplitr; swap; · iexact H4
    ipureintro; exact View.read_writes_eq_canon _ _ _ (View.cover_of_tiled _ S5000x64.size rfl)
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = out0_4 (iblk0 V c 0 t) (iblk0 V c 1 t) (iblk0 V c 2 t) (iblk0 V c 3 t) := by dsimp only [dat0]

/-- No input is written: what the body finds in one is what it leaves there. -/
theorem before0 (c : Dev nD) : ∀ w : Fin cfg0.W, (cfg0.win w).isOut = false → ∀ t d, (dat0 V c).before w t d = (dat0 V c).after w t
  | ⟨0, _⟩, h | ⟨1, _⟩, h | ⟨2, _⟩, h | ⟨3, _⟩, h => fun t d =>
    ((dat0 V c).before_in_eq_fetched _ h (fun _ => rfl) (fun _ _ _ => rfl) (fun _ => rfl) t d).trans rfl
  | ⟨4, _⟩, h => nomatch h

theorem body_obligation0 (c : Dev nD) : BodyObligation (dat0 (F := F) V c) (defs₀ (F := F)) Variants.none () Set.univ := fun t => by
  have b := before0 V c
  simp only [bigSep_W0, b 0 rfl, b 1 rfl, b 2 rfl, b 3 rfl]
  dsimp only [dat0]
  sl_whnfR [defs₀, Defs.onTc]
  iintro ⟨HΦ, Ho, ⟨%_, H0⟩, ⟨%_, H1⟩, ⟨%_, H2⟩, ⟨%_, H3⟩, %_, H4⟩
  iapply sound_kernel0
  iframe
  iintro ⟨H4, H0, H1, H2, H3⟩
  iframe
  iexact Ho

end Cert.KernelIdeal.Hand

end
-- ==== Proof.KI.Reg1.lean ====
import proofs.«426907_j42056319762623_3_alg».proof.Proof.Gen.KernelIdeal.Launch
import proofs.«426907_j42056319762623_3_alg».proof.Proof.Gen.KernelIdeal.Skeleton
import proofs.«426907_j42056319762623_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rAgg1 : Rect S5000x64 := Rect.unit (s := S5000x64) ![0, 0] S5000x64.size inb_S5000x64_S5000x64_0_0
abbrev rCol1 : Rect S5000x1 := Rect.unit (s := S5000x1) ![0, 0] S5000x1.size inb_S5000x1_S5000x1_0_0
abbrev rBias1 : Rect S1x64 := Rect.unit (s := S1x64) ![0, 0] S1x64.size inb_S1x64_S1x64_0_0
abbrev rWeight1 : Rect S64x32 := Rect.unit (s := S64x32) ![0, 0] S64x32.size inb_S64x32_S64x32_0_0
abbrev rOut1 : Rect S5000x32 := Rect.unit (s := S5000x32) ![0, 0] S5000x32.size inb_S5000x32_S5000x32_0_0

def out1_5 (xAgg : Vec F S5000x64 .f32) (xLin : Vec F S5000x64 .bf16) (xD : Vec F S5000x1 .f32) (xB : Vec F S1x64 .f32) (xW : Vec F S64x32 .f32) :
    Vec F S5000x32 .bf16 :=
  View.canon [⟨rOut1, k1_pay1 (View.ld xAgg rAgg1) (View.ld xD rCol1) (View.ld xLin rAgg1) (View.ld xB rBias1) (View.ld xW rWeight1)⟩]

/-- The body's one store covers the output block, so the block ends at the stored value whatever it held. -/
theorem sound_kernel1 {c : Dev nD} {E i arg1 arg2 arg3 arg4 arg5 arg6 harg1 harg2 harg3 harg4 harg5 harg6 x0 x1 x2 x3 x4 d}
    {K : PUnit → sProp 𝕄} :
    iprop(owns c.tc arg6 fullShare d ∗ owns c.tc arg1 fullShare x0 ∗ owns c.tc arg2 fullShare x1 ∗ owns c.tc arg3 fullShare x2
        ∗ owns c.tc arg4 fullShare x3 ∗ owns c.tc arg5 fullShare x4
        ∗ (iprop(owns c.tc arg6 fullShare (out1_5 x0 x1 x2 x3 x4) ∗ owns c.tc arg1 fullShare x0 ∗ owns c.tc arg2 fullShare x1
            ∗ owns c.tc arg3 fullShare x2 ∗ owns c.tc arg4 fullShare x3 ∗ owns c.tc arg5 fullShare x4) -∗ K ⟨⟩))
      ⊢ wp frame (wpE (defs₀ (F := F)) Variants.none c none) E
          (cc1__combine_linear_kernel i arg1 harg1 arg2 harg2 arg3 harg3 arg4 harg4 arg5 harg5 arg6 harg6) K := by
  simp only [cc1__combine_linear_kernel_eq_skeleton]; unfold cc1__combine_linear_kernel_skel owns
  iintro ⟨⟨%f5, -, H5⟩, ⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H5]
  · iexists _; isplitr; swap; · iexact H5
    ipureintro; exact View.read_writes_eq_canon _ _ _ (View.cover_of_tiled _ S5000x32.size rfl)
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- No input is written: what the body finds in one is what it leaves there. -/
theorem before1 (c : Dev nD) : ∀ w : Fin cfg1.W, (cfg1.win w).isOut = false → ∀ t d, (dat1 V c).before w t d = (dat1 V c).after w t
  | ⟨0, _⟩, h | ⟨1, _⟩, h | ⟨2, _⟩, h | ⟨3, _⟩, h | ⟨4, _⟩, h => fun t d =>
    ((dat1 V c).before_in_eq_fetched _ h (fun _ => rfl) (fun _ _ _ => rfl) (fun _ => rfl) t d).trans rfl
  | ⟨5, _⟩, h => nomatch h

theorem body_obligation1 (c : Dev nD) : BodyObligation (dat1 (F := F) V c) (defs₀ (F := F)) Variants.none () Set.univ := fun t => by
  have b := before1 V c
  simp only [bigSep_W1, b 0 rfl, b 1 rfl, b 2 rfl, b 3 rfl, b 4 rfl]
  dsimp only [dat1]
  sl_whnfR [defs₀, Defs.onTc]
  iintro ⟨HΦ, Ho, ⟨%_, H0⟩, ⟨%_, H1⟩, ⟨%_, H2⟩, ⟨%_, H3⟩, ⟨%_, H4⟩, %_, H5⟩
  iapply sound_kernel1
  iframe
  iintro ⟨H5, H0, H1, H2, H3, H4⟩
  iframe
  iexact Ho

end Cert.KernelIdeal.Hand

end
-- ==== Proof.KI.Reg2.lean ====
import proofs.«426907_j42056319762623_3_alg».proof.Proof.Gen.KernelIdeal.Launch
import proofs.«426907_j42056319762623_3_alg».proof.Proof.Gen.KernelIdeal.Skeleton
import proofs.«426907_j42056319762623_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)

theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

abbrev ms2_0 (t : Fin cfg2.N) : Memref sig .tc .vmem S5000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev scM2_0 : Memref sig .tc .vmem S32x32 .f32 := Memref.whole cc2_scratch0
abbrev scM2_1 : Memref sig .tc .vmem S1x32 .f32 := Memref.whole cc2_scratch1

/-- The rest of the invariant, beside the two accumulators. -/
def frame2 (c : Dev nD) : sProp 𝕄 :=
  iprop(Pipeline.scopedRestBut spec2 c [cc2_scratch0, cc2_scratch1] ∗ ∃ r, prngReg c r)

theorem PhiA2_eq (c : Dev nD) :
    (Pipeline.ΦA spec2 c : sProp 𝕄)
      = iprop((∃ d, owns (c : Thread nD τ) scM2_0 fullShare d) ∗ (∃ d, owns (c : Thread nD τ) scM2_1 fullShare d) ∗ frame2 (F := F) c) := by
  unfold Pipeline.ΦA frame2
  rw [Pipeline.scopedRest_split_of_list spec2 c [cc2_scratch0, cc2_scratch1] (by decide) (by decide)]
  simp only [scM2_0, scM2_1, owns_whole, bigSepL]
  refine BI.equiv_iff.mp ⟨?_, ?_⟩
  · change (iprop(((_ ∗ _) ∗ _) ∗ _) : sProp 𝕄) ⊢ _; iintro ⟨⟨⟨H0, H1⟩, Hr⟩, Hg⟩; iframe H0 H1 Hr Hg
  · change (_ : sProp 𝕄) ⊢ iprop(((_ ∗ _) ∗ _) ∗ _); iintro ⟨H0, H1, Hr, Hg⟩; iframe H0 H1 Hr Hg

theorem owns_unread (c : Dev nD) {sp : Space} {s : Shape} {e : EltTy} {m : Memref sig .tc sp s e} (h : m.IsWhole) (x : s.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  have := owns_intro (Ix := Unit) (Name := ℕ) (U := UR sig nD τ) (Lvl := ℕ) (c : Thread nD τ) m fullShare (h.unread x)
  rw [h.read_unread] at this; exact this

section Runs

variable (c : Dev nD) (i : grid2.Coords) (arg1 : Memref sig .tc .vmem S5000x1 .i32) (harg1 : arg1.IsWhole) (arg2 : Memref sig .tc .vmem S5000x32 .f32) (harg2 : arg2.IsWhole) (arg3 : Memref sig .tc .vmem S5000x32 .bf16) (harg3 : arg3.IsWhole) (arg4 : Memref sig .tc .vmem S5000x1 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole)

section First

set_option maxHeartbeats 1000000 in
noncomputable def kernelRun2_A (hc0 : cond2_0 i) (hc1 : ¬cond2_1 i) (x0 : Vec F S5000x1 .i32) (x1 : Vec F S5000x32 .f32) (x2 : Vec F S5000x32 .bf16) (x3 : Vec F S5000x1 .f32) (x4 : Vec F S1x32 .f32) :
    Σ' (LS0 : List (View.Piece (Elt F) S32x32 .f32)), { LS1 : List (View.Piece (Elt F) S1x32 .f32) //
      ∀ (xi5 : Vec F S32x32 .f32) (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    isplitl [H5]; · iapply owns_unread c harg6; iexact H5
    isplitl [H6]; · iapply owns_unread c harg7; iexact H6
    isplitl [HS0]; · iexists _; iexact HS0
    iexists _; iexact HS1

variable (hc0 : cond2_0 i) (hc1 : ¬cond2_1 i) (x0 : Vec F S5000x1 .i32) (x1 : Vec F S5000x32 .f32) (x2 : Vec F S5000x32 .bf16) (x3 : Vec F S5000x1 .f32) (x4 : Vec F S1x32 .f32)

theorem scover2_A_0 (y : S32x32.Idx) : ∃ pc ∈ (kernelRun2_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL _ S32x32.size (by sl_kernel_rfl) y
theorem scover2_A_1 (y : S1x32.Idx) : ∃ pc ∈ (kernelRun2_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL _ S1x32.size (by sl_kernel_rfl) y

end First

section Middle

set_option maxHeartbeats 1000000 in
noncomputable def kernelRun2_B (hc0 : ¬cond2_0 i) (hc1 : ¬cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32) :
    Σ' (LS0 : List (View.Piece (Elt F) S32x32 .f32)), { LS1 : List (View.Piece (Elt F) S1x32 .f32) //
      ∀ (xi5 : Vec F S32x32 .f32) (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    isplitl [H5]; · iapply owns_unread c harg6; iexact H5
    isplitl [H6]; · iapply owns_unread c harg7; iexact H6
    isplitl [HS0]; · iexists _; iexact HS0
    iexists _; iexact HS1

variable (hc0 : ¬cond2_0 i) (hc1 : ¬cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32)

theorem scover2_B_0 (y : S32x32.Idx) : ∃ pc ∈ (kernelRun2_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S32x32.size (by sl_kernel_rfl) y
theorem scover2_B_1 (y : S1x32.Idx) : ∃ pc ∈ (kernelRun2_B c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1x32.size (by sl_kernel_rfl) y

end Middle

section Last

set_option maxHeartbeats 1000000 in
noncomputable def kernelRun2_C (hc0 : ¬cond2_0 i) (hc1 : cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32) :
    Σ' (L5 : List (View.Piece (Elt F) S32x32 .f32)) (L6 : List (View.Piece (Elt F) S1x32 .f32)) (LS0 : List (View.Piece (Elt F) S32x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]; · iapply owns_unread c harg1; iexact H0
    isplitl [H1]; · iapply owns_unread c harg2; iexact H1
    isplitl [H2]; · iapply owns_unread c harg3; iexact H2
    isplitl [H3]; · iapply owns_unread c harg4; iexact H3
    isplitl [H4]; · iapply owns_unread c harg5; iexact H4
    isplitl [H5]; · iexists _; iexact H5
    isplitl [H6]; · iexists _; iexact H6
    isplitl [HS0]; · iexists _; iexact HS0
    iexists _; iexact HS1

variable (hc0 : ¬cond2_0 i) (hc1 : cond2_1 i) (x0 : Vec F S5000x1 .i32) (x1 : Vec F S5000x32 .f32) (x2 : Vec F S5000x32 .bf16) (x3 : Vec F S5000x1 .f32) (x4 : Vec F S1x32 .f32) (xs0 : Vec F S32x32 .f32) (xs1 : Vec F S1x32 .f32)

theorem cover2_C_5 (y : S32x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S32x32.size (by sl_kernel_rfl) y
theorem cover2_C_6 (y : S1x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1x32.size (by sl_kernel_rfl) y
theorem scover2_C_0 (y : S32x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S32x32.size (by sl_kernel_rfl) y
theorem scover2_C_1 (y : S1x32.Idx) : ∃ pc ∈ (kernelRun2_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL _ S1x32.size (by sl_kernel_rfl) y

end Last

end Runs

def idle2_5 : Vec F S32x32 .f32 := View.canon ([] : List (View.Piece (Elt F) S32x32 .f32))
def idle2_6 : Vec F S1x32 .f32 := View.canon ([] : List (View.Piece (Elt F) S1x32 .f32))

section Point

variable (c : Dev nD) (t : Fin cfg2.N)

/-- The three cases' runs at point `t`, the last two over what the accumulators held. -/
noncomputable abbrev run2_A (hc0 : cond2_0 (grid2.coords t)) (hc1 : ¬cond2_1 (grid2.coords t)) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t)
noncomputable abbrev run2_B (hc0 : ¬cond2_0 (grid2.coords t)) (hc1 : ¬cond2_1 (grid2.coords t)) (a : Vec F S32x32 .f32 × Vec F S1x32 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) a.1 a.2
noncomputable abbrev run2_C (hc0 : ¬cond2_0 (grid2.coords t)) (hc1 : cond2_1 (grid2.coords t)) (a : Vec F S32x32 .f32 × Vec F S1x32 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) a.1 a.2

end Point

/-- What a run leaves: in the two accumulators; in the two outputs and the two accumulators. -/
abbrev canon2 {P : List (View.Piece (Elt F) S32x32 .f32) → List (View.Piece (Elt F) S1x32 .f32) → Prop}
    (r : Σ' LS0, { LS1 // P LS0 LS1 }) : Vec F S32x32 .f32 × Vec F S1x32 .f32 := (View.canon r.1, View.canon r.2.1)
abbrev canon4 {P : List (View.Piece (Elt F) S32x32 .f32) → List (View.Piece (Elt F) S1x32 .f32) → List (View.Piece (Elt F) S32x32 .f32) → List (View.Piece (Elt F) S1x32 .f32) → Prop}
    (r : Σ' L5 L6 LS0, { LS1 // P L5 L6 LS0 LS1 }) : Vec F S32x32 .f32 × Vec F S1x32 .f32 × Vec F S32x32 .f32 × Vec F S1x32 .f32 :=
  (View.canon r.1, View.canon r.2.1, View.canon r.2.2.1, View.canon r.2.2.2.1)

def outsAt2 (c : Dev nD) : (n : ℕ) → n < cfg2.N → Vec F S32x32 .f32 × Vec F S1x32 .f32 × Vec F S32x32 .f32 × Vec F S1x32 .f32
  | 0, hn => (idle2_5, idle2_6, canon2 (run2_A V c ⟨0, hn⟩ ((hcond2_0 _).mpr rfl) fun h => absurd ((hcond2_1 _).mp h) (Nat.zero_ne_add_one 18)))
  | n + 1, hn =>
    if h1 : n + 1 = 19 then
      canon4 (run2_C V c ⟨n + 1, hn⟩ (fun h => Nat.succ_ne_zero n ((hcond2_0 _).mp h)) ((hcond2_1 _).mpr h1) (outsAt2 c n (Nat.lt_of_succ_lt hn)).2.2)
    else
      (idle2_5, idle2_6, canon2 (run2_B V c ⟨n + 1, hn⟩ (fun h => Nat.succ_ne_zero n ((hcond2_0 _).mp h)) (fun h => h1 ((hcond2_1 _).mp h)) (outsAt2 c n (Nat.lt_of_succ_lt hn)).2.2))

/-- The invariant before position `n`: what the region is entered with, then both accumulators at what the point before left. -/
def PhiS2 (c : Dev nD) : (n : ℕ) → n ≤ cfg2.N → sProp 𝕄
  | 0, _ => Pipeline.ΦA spec2 c
  | n + 1, hn => iprop(owns (c : Thread nD τ) scM2_0 fullShare (outsAt2 V c n hn).2.2.1 ∗ owns (c : Thread nD τ) scM2_1 fullShare (outsAt2 V c n hn).2.2.2 ∗ frame2 c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem Phi2_eq (c : Dev nD) (t : Fin (cfg2.N + 1)) : (dat2 V c).Φ t = PhiS2 V c t.val (Nat.le_of_lt_succ t.isLt) := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

/-- Pieces that cover a memref, once written, are owned at their canonical reading. -/
theorem owns_writes (c : Dev nD) {sp : Space} {s : Shape} {e : EltTy} (m : Memref sig .tc sp s e) (L : List (View.Piece (Elt F) s e))
    (hL : ∀ y : s.Idx, ∃ pc ∈ L, y ∈ pc.1.set) :
    (iprop(∃ f, m.view.loc (c : Thread nD τ) ↦[m.view.set]{fullShare} m.view.writes (Elt F) f L) : sProp 𝕄) ⊢ owns (c : Thread nD τ) m fullShare (View.canon L) := by
  unfold owns; iintro ⟨%f, H⟩; iexists m.view.writes (Elt F) f L; isplitr
  · ipureintro; exact View.read_writes_eq_canon _ _ _ hL
  iexact H

set_option maxHeartbeats 4800000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d))
      ∗ (∃ d, owns (c : Thread nD τ) (ms2_4 t) fullShare ((dat2 V c).before 4 t d))
      ∗ (∃ d, owns (c : Thread nD τ) (ms2_5 t) fullShare ((dat2 V c).before 5 t d))
      ∗ (∃ d, owns (c : Thread nD τ) (ms2_6 t) fullShare ((dat2 V c).before 6 t d)))
    ⊢ wp frame (wpE (defs₀ (F := F)) Variants.none c none) Set.univ (bodyAt2 t) (fun _ => iprop((dat2 V c).Φ t.succ ∗ (dat2 V c).owesAt () t.succ
      ∗ owns (c : Thread nD τ) (ms2_0 t) fullShare (iblk2 V c 0 t)
      ∗ owns (c : Thread nD τ) (ms2_1 t) fullShare (iblk2 V c 1 t)
      ∗ owns (c : Thread nD τ) (ms2_2 t) fullShare (iblk2 V c 2 t)
      ∗ owns (c : Thread nD τ) (ms2_3 t) fullShare (iblk2 V c 3 t)
      ∗ owns (c : Thread nD τ) (ms2_4 t) fullShare (iblk2 V c 4 t)
      ∗ (dat2 V c).leavesExact 5 t ∗ (dat2 V c).leavesExact 6 t)) := by
  unfold bodyAt2
  simp only [before2_0, before2_1, before2_2, before2_3, before2_4, Phi2_eq, Fin.coe_castSucc, Fin.val_succ]
  rw [show (dat2 V c).owesAt () t.succ = (dat2 V c).owesAt () t.castSucc from rfl]
  obtain ⟨_ | n, hn⟩ := t
  · have hc0 : cond2_0 (grid2.coords ⟨0, hn⟩) := (hcond2_0 _).mpr rfl
    have hc1 : ¬cond2_1 (grid2.coords ⟨0, hn⟩) := fun h => absurd ((hcond2_1 _).mp h) (Nat.zero_ne_add_one 18)
    simp only [PhiS2, outsAt2]
    rw [PhiA2_eq]
    rw [Dat.leavesExact_idle (dat2 V c) 5 _ (idleAt2_5 _ hc1) (noFlush2_5 _ hc1), Dat.leavesExact_idle (dat2 V c) 6 _ (idleAt2_6 _ hc1) (noFlush2_6 _ hc1)]
    iintro ⟨⟨HS0, HS1, Hfr⟩, Ho, ⟨%d0, H0⟩, ⟨%d1, H1⟩, ⟨%d2, H2⟩, ⟨%d3, H3⟩, ⟨%d4, H4⟩, ⟨%d5, H5⟩, ⟨%d6, H6⟩⟩
    iapply ((run2_A V c _ hc0 hc1).2.2 _ _ Set.univ _)
    iframe H0 H1 H2 H3 H4 H5 H6 HS0 HS1
    iintro ⟨H0, H1, H2, H3, H4, H5, H6, HS0, HS1⟩
    isplitl [HS0 HS1 Hfr]
    · isplitl [HS0]; · iapply owns_writes c _ _ (fun y => scover2_A_0 (y := y) ..); iexact HS0
      isplitl [HS1]; · iapply owns_writes c _ _ (fun y => scover2_A_1 (y := y) ..); iexact HS1
      iexact Hfr
    iframe Ho H0 H1 H2 H3 H4
    isplitl [H5]; · iexists _; iexact H5
    iexists _; iexact H6
  · have hc0 : ¬cond2_0 (grid2.coords ⟨n + 1, hn⟩) := fun h => Nat.succ_ne_zero n ((hcond2_0 _).mp h)
    by_cases h1 : n + 1 = 19
    · have hc1 : cond2_1 (grid2.coords ⟨n + 1, hn⟩) := (hcond2_1 _).mpr h1
      rw [show (dat2 V c).leavesExact 5 ⟨n + 1, hn⟩ = owns (c : Thread nD τ) (ms2_5 ⟨n + 1, hn⟩) fullShare ((dat2 V c).after 5 ⟨n + 1, hn⟩) from by
        unfold Dat.leavesExact; rw [liveAt2_5 ⟨n + 1, hn⟩ hc1], after2_5]
      rw [show (dat2 V c).leavesExact 6 ⟨n + 1, hn⟩ = owns (c : Thread nD τ) (ms2_6 ⟨n + 1, hn⟩) fullShare ((dat2 V c).after 6 ⟨n + 1, hn⟩) from by
        unfold Dat.leavesExact; rw [liveAt2_6 ⟨n + 1, hn⟩ hc1], after2_6]
      simp only [PhiS2, outsAt2, dif_pos h1]
      iintro ⟨⟨HS0, HS1, Hfr⟩, Ho, ⟨%d0, H0⟩, ⟨%d1, H1⟩, ⟨%d2, H2⟩, ⟨%d3, H3⟩, ⟨%d4, H4⟩, ⟨%d5, H5⟩, ⟨%d6, H6⟩⟩
      iapply ((run2_C V c _ hc0 hc1 _).2.2.2.2 Set.univ _)
      iframe H0 H1 H2 H3 H4 HS0 HS1
      isplitl [H5]; · iexists _; iexact H5
      isplitl [H6]; · iexists _; iexact H6
      iintro ⟨H0, H1, H2, H3, H4, H5, H6, HS0, HS1⟩
      isplitl [HS0 HS1 Hfr]
      · isplitl [HS0]; · iapply owns_writes c _ _ (fun y => scover2_C_0 (y := y) ..); iexact HS0
        isplitl [HS1]; · iapply owns_writes c _ _ (fun y => scover2_C_1 (y := y) ..); iexact HS1
        iexact Hfr
      iframe Ho H0 H1 H2 H3 H4
      isplitl [H5]; · iapply owns_writes c _ _ (fun y => cover2_C_5 (y := y) ..); iexact H5
      iapply owns_writes c _ _ (fun y => cover2_C_6 (y := y) ..); iexact H6
    · have hc1 : ¬cond2_1 (grid2.coords ⟨n + 1, hn⟩) := fun h => h1 ((hcond2_1 _).mp h)
      simp only [PhiS2, outsAt2, dif_neg h1]
      rw [Dat.leavesExact_idle (dat2 V c) 5 _ (idleAt2_5 _ hc1) (noFlush2_5 _ hc1), Dat.leavesExact_idle (dat2 V c) 6 _ (idleAt2_6 _ hc1) (noFlush2_6 _ hc1)]
      iintro ⟨⟨HS0, HS1, Hfr⟩, Ho, ⟨%d0, H0⟩, ⟨%d1, H1⟩, ⟨%d2, H2⟩, ⟨%d3, H3⟩, ⟨%d4, H4⟩, ⟨%d5, H5⟩, ⟨%d6, H6⟩⟩
      iapply ((run2_B V c _ hc0 hc1 _).2.2 _ _ Set.univ _)
      iframe H0 H1 H2 H3 H4 H5 H6 HS0 HS1
      iintro ⟨H0, H1, H2, H3, H4, H5, H6, HS0, HS1⟩
      isplitl [HS0 HS1 Hfr]
      · isplitl [HS0]; · iapply owns_writes c _ _ (fun y => scover2_B_0 (y := y) ..); iexact HS0
        isplitl [HS1]; · iapply owns_writes c _ _ (fun y => scover2_B_1 (y := y) ..); iexact HS1
        iexact Hfr
      iframe Ho H0 H1 H2 H3 H4
      isplitl [H5]; · iexists _; iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Idealize.SL.BI.Entails.refl _

/-- After the last point the accumulators' contents are forgotten. -/
theorem hout2 (c : Dev nD) : (dat2 V c).Φ (Fin.last cfg2.N) ⊢ (Pipeline.ΦA spec2 c : sProp 𝕄) := by
  rw [PhiA2_eq]
  show iprop(_ ∗ _ ∗ frame2 c) ⊢ _
  iintro ⟨HS0, HS1, Hfr⟩
  isplitl [HS0]; · iexists _; iexact HS0
  isplitl [HS1]; · iexists _; iexact HS1
  iexact Hfr

end Region2

end Cert.KernelIdeal.Hand

end
-- ==== Proof.KI.Fold.lean ====
import proofs.«426907_j42056319762623_3_alg».proof.Proof.KI.Reg0
import proofs.«426907_j42056319762623_3_alg».proof.Proof.KI.Reg1
import proofs.«426907_j42056319762623_3_alg».proof.Proof.KI.Reg2

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ) (ρ : Dev nD → PrngReg)

/-- The buffers' contents between the entry function's items, folded from the launch memory. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)
abbrev V7 : (c : Dev nD) → (b : Ref sig .tc) → Buf (Elt F) ((c : Thread nD τ).loc b) := fun c b => W7 m ρ c b
abbrev V8 : (c : Dev nD) → (b : Ref sig .tc) → Buf (Elt F) ((c : Thread nD τ).loc b) := fun c b => W8 m ρ c b
abbrev V9 : (c : Dev nD) → (b : Ref sig .tc) → Buf (Elt F) ((c : Thread nD τ).loc b) := fun c b => W9 m ρ c b

end Cert.KernelIdeal.Hand

end
-- ==== Proof.KI.Run.lean ====
import proofs.«426907_j42056319762623_3_alg».proof.Proof.KI.Fold
import proofs.«426907_j42056319762623_3_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region `p`'s proof data, at its entry contents. -/
def pdats : (p : Fin 3) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
/-- The contents region `p` is entered from and those it leaves. -/
def Wi : Fin 3 → Dev nD → Valuation τ sig (Elt F)
  | ⟨0, _⟩ => W1 m ρ
  | ⟨1, _⟩ => W3 m ρ
  | ⟨2, _⟩ => W5 m ρ
def Wo : Fin 3 → Dev nD → Valuation τ sig (Elt F)
  | ⟨0, _⟩ => W2 m ρ
  | ⟨1, _⟩ => W4 m ρ
  | ⟨2, _⟩ => W6 m ρ
theorem launch : ∀ p, Pipeline.LaunchFacts (nD := nD) (τ := τ) cfgs p
  | ⟨0, _⟩ => launch0
  | ⟨1, _⟩ => launch1
  | ⟨2, _⟩ => launch2
theorem obligation : ∀ p c, BodyObligation (pdats m ρ p c) (defs₀ (F := F)) Variants.none () Set.univ
  | ⟨0, _⟩ => body_obligation0 (V1 m ρ)
  | ⟨1, _⟩ => body_obligation1 (V3 m ρ)
  | ⟨2, _⟩ => body_obligation2 (V5 m ρ)
theorem ΦA_in : ∀ p c, (Pipeline.ΦA (cfgs p).spec c : sProp 𝕄) ⊢ (pdats m ρ p c).Φ 0
  | ⟨0, _⟩, _ => .rfl
  | ⟨1, _⟩, _ => .rfl
  | ⟨2, _⟩, c => hin2 (V5 m ρ) c
theorem ΦA_out : ∀ p c, (pdats m ρ p c).Φ (Fin.last _) ⊢ (Pipeline.ΦA (cfgs p).spec c : sProp 𝕄)
  | ⟨0, _⟩, _ => .rfl
  | ⟨1, _⟩, _ => .rfl
  | ⟨2, _⟩, c => hout2 (V5 m ρ) c
theorem A_eq : ∀ p c w, (pdats m ρ p c).A w = Wi m ρ p c (Proc.devRef .tc (Pipeline.arrRef (cfgs p).spec w))
  | ⟨0, _⟩, _, _ => rfl
  | ⟨1, _⟩, _, _ => rfl
  | ⟨2, _⟩, _, _ => rfl
theorem Wo_arr : ∀ p c w, Wo m ρ p c (Proc.devRef .tc (Pipeline.arrRef (cfgs p).spec w)) = (pdats m ρ p c).arrAt w (cfgs p).N
  | ⟨0, _⟩ => W2_arr m ρ
  | ⟨1, _⟩ => W4_arr m ρ
  | ⟨2, _⟩ => W6_arr m ρ
theorem Wo_of_ne : ∀ p c b, (∀ w, Pipeline.arrRef (cfgs p).spec w ≠ b) → Wo m ρ p c (Proc.devRef .tc b) = Wi m ρ p c (Proc.devRef .tc b)
  | ⟨0, _⟩ => W2_of_ne m ρ
  | ⟨1, _⟩ => W4_of_ne m ρ
  | ⟨2, _⟩ => W6_of_ne m ρ
theorem share_eq : ∀ p c w, (pdats m ρ p c).share w = fullShare
  | ⟨0, _⟩, _ => Dat.share_full _ fun _ => rfl
  | ⟨1, _⟩, _ => Dat.share_full _ fun _ => rfl
  | ⟨2, _⟩, _ => Dat.share_full _ fun _ => rfl

abbrev 𝒱₀ : Variants := Variants.none
abbrev L : GSem nD τ sig → Finset Unit := fun _ => ∅
abbrev lv : GSem nD τ sig → Unit → ℕ := fun _ _ => 0
/-- Core `c` owing nothing. -/
abbrev O (c : Dev nD) : sProp 𝕄 := iprop(∃ W, owes (c : Thread nD τ) (0 : CellTallies nD τ sig Unit) W)
/-- What rides beside the buffers through every segment. -/
abbrev R (c : Dev nD) : sProp 𝕄 := iprop((∃ r, prngReg c r) ∗ O c)
/-- Core `c` between two segments: every buffer at `W c`, beside `R c`. -/
abbrev T (W : Dev nD → Valuation τ sig (Elt F)) (c : Dev nD) : sProp 𝕄 :=
  iprop(StableHlo.held (c : Thread nD τ) (Pipeline.ucRefs τ sig) (W c) ∗ R c)

theorem owes_in (p : Fin 3) (c : Dev nD) : (O c : sProp 𝕄) ⊢ (pdats m ρ p c).owesAt () 0 := by
  fin_cases p <;>
  · unfold Pipeline.Dat.owesAt Pipeline.owesWithin
    iintro ⟨%W, HO⟩; iexists W; isplitr; · ipureintro; exact fun _ _ => Or.inl trivial
    iexact HO
theorem owes_out (p : Fin 3) (c : Dev nD) : (pdats m ρ p c).owesAt () (Fin.last _) ⊢ (O c : sProp 𝕄) := by
  fin_cases p <;>
  · unfold Pipeline.Dat.owesAt Pipeline.owesWithin
    iintro ⟨%W, -, HO⟩; iexists W; iexact HO

abbrev Vi (p : Fin 3) (c : Dev nD) (b : Ref sig .tc) : Buf (Elt F) ((c : Thread nD τ).loc b) := Wi m ρ p c b
abbrev Vo (p : Fin 3) (c : Dev nD) (b : Ref sig .tc) : Buf (Elt F) ((c : Thread nD τ).loc b) := Wo m ρ p c b

/-- Region `p` as a segment from `Wi p` to `Wo p`: its windows' arrays split out of the buffers and put back. -/
def reg (p : Fin 3) : Pipeline.RegionSeg (pcfgs (F := F)) adm (pdats m ρ) () defs₀ 𝒱₀ L lv p where
  win := (launch p).win.to₀
  block_pos := (launch p).block_pos
  stage_whole := (launch p).stage_whole
  K := PEmpty
  osem k := k.elim
  ho := Pipeline.OwnSemFacts.none _
  hbody c := (obligation m ρ p c).loose
  hwaits := Pipeline.hwaits_of_owed_zero _ _ _ _ L lv p (by fin_cases p <;> exact fun _ _ => rfl)
  pre := T (Wi m ρ p)
  post := T (Wo m ρ p)
  X c := iprop(∃ r, prngReg c r)
  Y c := iprop(∃ r, prngReg c r)
  Z c := Pipeline.unscopedRest (Ix := Unit) (Name := ℕ) (U := UR sig nD τ) (Lvl := ℕ) (cfgs p).spec c (Vi m ρ p c)
  hentry c := by
    rw [Pipeline.ownSems0_none]
    have hsplit := Pipeline.arrays_of_unscopedBufs (p := p) (pcfgs (F := F)) adm (pdats m ρ) (launch p).win (launch p).arr_whole c
      (share_eq m ρ p c) (Vi m ρ p c) (A_eq m ρ p c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iapply owes_in m ρ p c; iexact HO
  hin c := by
    refine .trans ?_ (ΦA_in m ρ p c)
    unfold Pipeline.ΦA
    iintro ⟨Hp, -, Hr⟩
    iframe
  hout c := by
    rw [Pipeline.ownSems0_none]
    refine (ΦA_out m ρ p c).trans ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      (launch p).win (launch p).arr_whole c (pdats m ρ) (share_eq m ρ p c) (Vi m ρ p c) (Vo m ρ p c) ((pdats m ρ p c).arrAt · (cfgs p).N)
      (fun w => (Wo_arr m ρ p c w).symm) fun b hb => Wo_of_ne m ρ p c b fun w e => hb (Finset.mem_image.mpr ⟨w, Finset.mem_univ _, e⟩)
    rw [Pipeline.unscopedBufs_held] at hjoin
    iintro ⟨Ha, HO, HY, Hrest⟩
    imodintro
    isplitl [Ha Hrest]; · iapply hjoin; iframe
    isplitl [HY]; · iexact HY
    iapply owes_out m ρ p c; iexact HO

/-- A host stretch as a segment: its operations applied to the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

abbrev segs : List (Pipeline.Seg (pcfgs (F := F)) adm (pdats m ρ) () defs₀ 𝒱₀ L lv) :=
  [ .host (hseg hostOps0 hostOps0_sub hostOps0_fresh (W0 m ρ)),
    .region (reg m ρ 0),
    .host (hseg hostOps1 hostOps1_sub hostOps1_fresh (W2 m ρ)),
    .region (reg m ρ 1),
    .host (hseg hostOps2 hostOps2_sub hostOps2_fresh (W4 m ρ)),
    .region (reg m ρ 2),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The launch over the nine segments, the last thread state read against the final memory. -/
theorem run : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      rw [BI.bigSep_emp_const]; iempintro)
    (T₀ := T (W0 m ρ))
    (Tₙ := fun c => iprop(StableHlo.held (c : Thread nD τ) (Pipeline.ucRefs τ sig) (W9 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- An input window's array never changes. -/
theorem Wo_kept (p : Fin 3) (c : Dev nD) (r : Ref sig .tc)
    (h : ∀ w, Pipeline.arrRef (cfgs p).spec w = r → ((cfgs p).win w).isOut = false) :
    Wo m ρ p c (Proc.devRef .tc r) = Wi m ρ p c (Proc.devRef .tc r) := by
  by_cases hw : ∃ w, Pipeline.arrRef (cfgs p).spec w = r
  · obtain ⟨w, rfl⟩ := hw
    exact (Wo_arr m ρ p c w).trans (((pdats m ρ p c).arrAt_in w (h w rfl) _).trans (A_eq m ρ p c w))
  · exact Wo_of_ne m ρ p c r fun w e => hw ⟨w, e⟩

theorem kept {mem : (ℓ : Loc nD τ sig) → Buf (Elt F) ℓ} {c : Dev nD}
    (hm : ∀ b ∈ Pipeline.ucRefs τ sig, mem (((c : Thread nD τ)).1, b) = W9 m ρ c b) (r : Ref sig .tc)
    (hu : ¬ (Proc.devRef .tc r : DevRef τ sig).isScoped)
    (hh : r ∉ hostOps0_W ∧ r ∉ hostOps1_W ∧ r ∉ hostOps2_W ∧ r ∉ hostOps3_W ∧ r ∉ hostOps3_1_W ∧ r ∉ hostOps3_2_W)
    (hr : ∀ p w, Pipeline.arrRef (cfgs p).spec w = r → ((cfgs p).win w).isOut = false) :
    mem ((c.tc : Thread nD τ).loc r) = m ((c.tc : Thread nD τ).loc r) :=
  calc mem ((c.tc : Thread nD τ).loc r)
    _ = W9 m ρ c (Proc.devRef .tc r) := hm _ (mem_uc r hu)
    _ = W8 m ρ c (Proc.devRef .tc r) := StableHlo.after_of_writes_sub hostOps3_2 _ hostOps3_2_writes hh.2.2.2.2.2
    _ = W7 m ρ c (Proc.devRef .tc r) := StableHlo.after_of_writes_sub hostOps3_1 _ hostOps3_1_writes hh.2.2.2.2.1
    _ = W6 m ρ c (Proc.devRef .tc r) := StableHlo.after_of_writes_sub hostOps3 _ hostOps3_writes hh.2.2.2.1
    _ = W5 m ρ c (Proc.devRef .tc r) := Wo_kept m ρ 2 c r (hr 2)
    _ = W4 m ρ c (Proc.devRef .tc r) := StableHlo.after_of_writes_sub hostOps2 _ hostOps2_writes hh.2.2.1
    _ = W3 m ρ c (Proc.devRef .tc r) := Wo_kept m ρ 1 c r (hr 1)
    _ = W2 m ρ c (Proc.devRef .tc r) := StableHlo.after_of_writes_sub hostOps1 _ hostOps1_writes hh.2.1
    _ = W1 m ρ c (Proc.devRef .tc r) := Wo_kept m ρ 0 c r (hr 0)
    _ = m ((c : Thread nD τ).loc r) := StableHlo.after_of_writes_sub hostOps0 _ hostOps0_writes hh.1

end Cert.KernelIdeal.Hand

end
-- ==== Proof.Bridge.Args.lean ====
import proofs.«426907_j42056319762623_3_alg».proof.Proof.Gen.KernelIdeal
import proofs.«426907_j42056319762623_3_alg».proof.Proof.Gen.ReferenceIdeal.Read

noncomputable section

namespace Cert.Bridge

open Cert.KernelIdeal Cert.ReferenceIdeal.Read Idealize.ShloMosaic Idealize.ShloMosaic.TcCoe Idealize.SL.Sem

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)

abbrev Rv1 := val_main_v1 (F := Ideal)
abbrev Rv3 := val_main_v3 (F := Ideal)
abbrev Rv10 := val_main_v10 (F := Ideal)
abbrev Rv32 := val_main_v32 (F := Ideal)
abbrev Rv45 := val_main_v45 (F := Ideal)
abbrev Rv46 := val_main_v46 (F := Ideal)
abbrev Rv55 := val_main_v55 (F := Ideal)
abbrev Rv77 := val_main_v77 (F := Ideal)
abbrev Rv90 := val_main_v90 (F := Ideal)
abbrev Rv91 := val_main_v91 (F := Ideal)
abbrev Rv102 := val_main_v102 (F := Ideal)
abbrev Rv106 := val_main_v106 (F := Ideal)
abbrev Rv122 := val_main_v122 (F := Ideal)

end Cert.Bridge

end
-- ==== Proof.LibIndex.lean ====
import Idealize.ShloMosaic.PureOps.Ideal.Laws
import Idealize.ShloMosaic.Lib.ValueIdxRank1
import Idealize.ShloMosaic.Lib.Pipeline.Value
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-- An `M×K` by `K×N` product into a zero accumulator, read at `(p, q)`: the sum over `k` of `A (p, k) * B (k, q)`. -/
theorem matmul_zero_apply {M K N : Nat} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A : FVec Ideal ⟨2, ![M, K]⟩ φ₁) (B : FVec Ideal ⟨2, ![K, N]⟩ φ₂) (p : Fin M) (q : Fin N) :
    matmul D none A B (constant _ .f32 0x00000000#32) (ix2 p q) = ∑ k : Fin K, A (ix2 p k) * B (ix2 k q) := by
  obtain ⟨lc, rc, ln, rn, lb, rb, wf⟩ := D
  dsimp only at h1 h2 h3 h4 h5 h6
  subst h1 h2 h3 h4 h5 h6
  refine (Ideal.matmul_constant_zero_apply _ none A B (ix2 p q)).trans ?_
  rw [← Equiv.sum_comp (contrEquiv1 _ K rfl rfl).symm]
  refine Finset.sum_congr rfl fun k _ => ?_
  have hk := contrEquiv1_symm_val (DotDims.mk [1] [0] [0] [1] [] [] wf) K rfl rfl k
  congr 2 <;> refine Shape.idx_ext₂ ?_ ?_
  · exact congrArg Fin.val ((dif_neg List.not_mem_nil).trans (dif_pos (List.mem_singleton.mpr rfl)))
  · exact (DotDims.lhsIdx_val_of_single _ rfl _ _).trans hk
  · exact (DotDims.rhsIdx_val_of_single _ rfl _ _).trans hk
  · exact congrArg Fin.val ((dif_neg List.not_mem_nil).trans (dif_pos (List.mem_singleton.mpr rfl)))

theorem mem_kept {s : Shape} (axes : List (Fin s.rank)) (a : Fin s.rank) : a ∈ s.kept axes ↔ a ∉ axes :=
  List.mem_filter.trans ((and_iff_right (List.mem_finRange a)).trans decide_eq_true_iff)

/-- An update lands on `i` exactly when, on every axis, window start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq, funext_iff]
    refine forall_congr' fun a => ?_
    have := h a
    rw [Fin.ext_iff]
    show (d.start j idx a + (d.window j a : Int)).toNat = (i a).val ↔ _
    omega
  · rename_i h
    refine iff_of_false nofun fun hi => h fun a => ?_
    have := (i a).isLt
    rw [hi a]
    omega

section Row
variable {N C R w : Nat} (wf : ScatterDims.WF ⟨2, ![N, C]⟩ ⟨2, ![R, 1]⟩ ⟨2, ![R, C]⟩ [1] [0] [0] 1)
  (idx : IVec ⟨2, ![R, 1]⟩ w)

/-- Update `(k, c')` of a scatter of rows lands on `(v, c)` exactly when row `k`'s index, read signed, is `v` and the columns agree. -/
theorem rowScatter_lands (k : Fin R) (c' : Fin C) (v : Fin N) (c : Fin C) :
    (ScatterDims.mk [1] [0] [0] 1 wf).resultIdx? (ix2 k c') idx = some (ix2 v c)
      ↔ (idx (ix2 k (0 : Fin 1))).toInt = (v.val : Int) ∧ c' = c := by
  have hs0 : (ScatterDims.mk [1] [0] [0] 1 wf).start (ix2 k c') idx (0 : Fin 2) = (idx (ix2 k (0 : Fin 1))).toInt :=
    (dif_pos (List.mem_singleton.mpr rfl)).trans (congrArg (fun i => (idx i).toInt) (Shape.idx_ext₂ rfl rfl))
  have hs1 : (ScatterDims.mk [1] [0] [0] 1 wf).start (ix2 k c') idx (1 : Fin 2) = 0 :=
    dif_neg (show (1 : Fin 2) ∉ ([0] : List (Fin 2)) by decide)
  have hw0 : (ScatterDims.mk [1] [0] [0] 1 wf).window (ix2 k c') (0 : Fin 2) = 0 :=
    dif_neg fun h => (mem_kept _ _).mp h (List.mem_singleton.mpr rfl)
  have hw1 : (ScatterDims.mk [1] [0] [0] 1 wf).window (ix2 k c') (1 : Fin 2) = c'.val :=
    (dif_pos ((mem_kept _ _).mpr (show (1 : Fin 2) ∉ ([0] : List (Fin 2)) by decide))).trans rfl
  rw [resultIdx?_eq_some_iff, Fin.forall_fin_two, hs0, hs1, hw0, hw1, Fin.ext_iff]
  show _ + ((0 : ℕ) : ℤ) = (v.val : ℤ) ∧ (0 : ℤ) + (c'.val : ℤ) = (c.val : ℤ) ↔ _
  omega

end Row

/-- A scatter that adds rows, read at `(v, c)`: the operand's element plus column `c` of every update row whose index is `v`. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  show Ideal.hostScatterAdd _ x idx upd (ix2 v c) = _
  unfold Ideal.hostScatterAdd
  congr 1
  rw [Finset.sum_filter, sum_idx2]
  refine Finset.sum_congr rfl fun k _ => ?_
  rw [Finset.sum_eq_single c (fun b _ hb => if_neg fun h => hb ((rowScatter_lands wf idx k b v c).1 h).2)
    fun h => (h (Finset.mem_univ c)).elim]
  exact if_congr ((rowScatter_lands wf idx k c v c).trans (and_iff_left rfl)) rfl rfl

/-- A scatter that adds scalars into a vector, read at `v`: the operand's element plus every update whose index is `v`. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  show Ideal.hostScatterAdd _ x idx upd (ix1 v) = _
  unfold Ideal.hostScatterAdd
  congr 1
  rw [Finset.sum_filter, ← Equiv.sum_comp idxEquiv1.symm]
  refine Finset.sum_congr rfl fun k _ => if_congr ?_ rfl rfl
  have hs : (ScatterDims.mk [] [0] [0] 1 wf).start (ix1 k) idx (0 : Fin 1) = (idx (ix2 k (0 : Fin 1))).toInt :=
    (dif_pos (List.mem_singleton.mpr rfl)).trans (congrArg (fun i => (idx i).toInt) (Shape.idx_ext₂ rfl rfl))
  have hw : (ScatterDims.mk [] [0] [0] 1 wf).window (ix1 k) (0 : Fin 1) = 0 :=
    dif_neg fun h => (mem_kept _ _).mp h (List.mem_singleton.mpr rfl)
  show (ScatterDims.mk [] [0] [0] 1 wf).resultIdx? (ix1 k) idx = some (ix1 v) ↔ _
  rw [resultIdx?_eq_some_iff, Fin.forall_fin_one, hs, hw]
  show _ + ((0 : ℕ) : ℤ) = (v.val : ℤ) ↔ _
  omega

end Cert.LibIndex

end
-- ==== Proof.Bridge.B0.lean ====
import proofs.«426907_j42056319762623_3_alg».proof.Proof.KI.Reg0
import proofs.«426907_j42056319762623_3_alg».proof.Proof.Bridge.Args
import proofs.«426907_j42056319762623_3_alg».proof.Proof.LibIndex
import Idealize.ShloMosaic.Lib.ValueLayout
import Idealize.ShloMosaic.Lib.Pipeline.Value
import Idealize.ShloMosaic.Lib.QrPanel.Panel

noncomputable section

namespace Cert.Bridge

open Cert.KernelIdeal Cert.KernelIdeal.Gen Cert.KernelIdeal.Hand
open Cert.LibIndex (matmul_zero_apply)
open Idealize.ShloMosaic.QrPanel.Panel (zeros2)
open Idealize.ShloMosaic Idealize.ShloMosaic.TcCoe Idealize.ShloMosaic.ValueIdx Idealize.SL.Sem

namespace B0Aux

theorem pay_apply (xRows : Vec Ideal S5000x128 .f32) (xMean xDev : Vec Ideal S1x128 .f32) (xW : Vec Ideal S128x64 .f32)
    (p : Fin 5000) (q : Fin 64) :
    k0_pay1 xRows xMean xDev xW (ix2 p q)
      = ∑ k : Fin 128, Ideal.div (xRows (ix2 p k) - xMean (ix2 (0 : Fin 1) k)) (xDev (ix2 (0 : Fin 1) k)) * xW (ix2 k q) := by
  unfold k0_pay1
  simp only [shapeCast_self]
  rw [truncf_apply, matmul_zero_apply _ rfl rfl rfl rfl rfl rfl]
  refine Finset.sum_congr rfl fun k _ => ?_
  rw [truncf_apply, truncf_apply, divf_apply, subf_apply, broadcastTo_1b_ab_apply, broadcastTo_1b_ab_apply]

theorem off0 : ∀ (w : Fin cfg0.W) (t : Fin cfg0.N) (a : Fin (cfg0.win w).shape.rank),
    (cfg0.win w).index t a * (cfg0.win w).size a = if (w.val = 2 ∨ w.val = 4) ∧ a.val = 0 then 5000 * t.val else 0 := by
  decide +kernel

theorem emb0 (w : Fin cfg0.W) (t : Fin cfg0.N) (y : ((cfg0.win w).xblock (cfg0.grid.coords t)).Idx) (a : Fin (cfg0.win w).shape.rank) :
    (((cfg0.win w).rect t).emb y a : ℕ) = y a + if (w.val = 2 ∨ w.val = 4) ∧ a.val = 0 then 5000 * t.val else 0 := by
  rw [(cfg0.win w).rect_emb_val, off0, Nat.add_comm]

/-- Row `r` of block `t` among the 100000 rows. -/
def node (t : Fin cfg0.N) (r : Fin 5000) : Fin 100000 :=
  ⟨r.val + 5000 * t.val, by have := lt_of_lt_of_eq t.isLt N_0; omega⟩

theorem cover (i : S100000x64.Idx) : ∃ t : Fin cfg0.N, (cfg0.win 4).flush t = true ∧ i ∈ ((cfg0.win 4).blk t).view.set := by
  have hi := idx2_lt0 i
  obtain ⟨t, ht⟩ : ∃ t : Fin cfg0.N, t.val = (i 0).val / 5000 := ⟨⟨(i 0).val / 5000, by rw [show cfg0.N = 20 from N_0]; omega⟩, rfl⟩
  have h : ((cfg0.win 4).blk t).view.emb (ix2 ⟨(i 0).val % 5000, Nat.mod_lt _ (by decide)⟩ (i 1)) = i :=
    Shape.idx_ext₂ ((emb0 4 t _ 0).trans (by show (i 0).val % 5000 + 5000 * t.val = (i 0).val; omega)) (emb0 4 t _ 1)
  exact ⟨t, flush0_4 t, h ▸ View.emb_mem_set _ _⟩

variable (V : (c : Dev nD) → (b : Ref sig .tc) → Buf (Elt Ideal) ((c : Thread nD τ).loc b)) (c : Dev nD)
  (a0 : (⟨S100000x128, .f32⟩ : BufTy).Contents (Elt Ideal)) (a4 a5 : (⟨S128, .f32⟩ : BufTy).Contents (Elt Ideal))
  (a6 : (⟨S128x64, .f32⟩ : BufTy).Contents (Elt Ideal))

theorem iblk_apply (t : Fin cfg0.N) (r : Fin 5000) (k : Fin 128) (q : Fin 64) :
    iblk0 V c 2 t (ix2 r k) = V c main_arg0 (ix2 (node t r) k) ∧
    iblk0 V c 0 t (ix2 (0 : Fin 1) k) = V c main_v27 (ix2 (0 : Fin 1) k) ∧
    iblk0 V c 1 t (ix2 (0 : Fin 1) k) = V c main_v28 (ix2 (0 : Fin 1) k) ∧
    iblk0 V c 3 t (ix2 k q) = V c main_arg6 (ix2 k q) :=
  ⟨congrArg (V c main_arg0) (Shape.idx_ext₂ (emb0 2 t _ 0) (emb0 2 t _ 1)), congrArg (V c main_v27) (Shape.idx_ext₂ (emb0 0 t _ 0) (emb0 0 t _ 1)),
   congrArg (V c main_v28) (Shape.idx_ext₂ (emb0 1 t _ 0) (emb0 1 t _ 1)), congrArg (V c main_arg6) (Shape.idx_ext₂ (emb0 3 t _ 0) (emb0 3 t _ 1))⟩

open Cert.ReferenceIdeal.Read in
theorem ref_apply (n : Fin 100000) (q : Fin 64) :
    Rv10 a0 a4 a5 a6 (ix2 n q) = ∑ k : Fin 128, Ideal.div (a0 (ix2 n k) - a4 (ix1 k)) (a5 (ix1 k)) * a6 (ix2 k q) := by
  refine (val_main_v10_apply a0 a4 a5 a6 (ix2 n q)).trans ?_
  refine Finset.sum_congr rfl fun k _ => ?_
  have el : lidx_main_v10 (ix2 n q) k = ix2 n k := eq_ix2 _
  have er : ridx_main_v10 (ix2 n q) k = ix2 k q := eq_ix2 _
  have e4 : idx_main_v4 (idx_main_v5 (ix2 n k)) = ix1 k := eq_ix1 _
  have e5 : idx_main_v7 (idx_main_v8 (ix2 n k)) = ix1 k := eq_ix1 _
  rw [el, er, val_main_v9_apply, val_main_v6_apply, val_main_v5_apply, val_main_v4_apply, val_main_v8_apply,
    val_main_v7_apply, e4, e5]
  rfl

theorem flushed_eq (G : (⟨S100000x64, .bf16⟩ : BufTy).Contents (Elt Ideal))
    (hG : ∀ t r q, k0_pay1 (iblk0 V c 2 t) (iblk0 V c 0 t) (iblk0 V c 1 t) (iblk0 V c 3 t) (ix2 r q) = G (ix2 (node t r) q))
    (t : Fin cfg0.N) : (dat0 V c).flushed 4 t = ((cfg0.win 4).blk t).view.read (Elt Ideal) G := by
  show (cfg0.win 4).cut (grid0.coords t) ((dat0 V c).after 4 t) = _
  rw [after0_4]
  unfold out0_4
  rw [View.canon_unit_zero zeros2]
  simp only [View.ld_unit_zero (S := S5000x128) zeros2, View.ld_unit_zero (S := S1x128) zeros2, View.ld_unit_zero (S := S128x64) zeros2]
  funext j
  obtain ⟨r, q, rfl⟩ : ∃ (r : Fin 5000) (q : Fin 64), j = ix2 r q := ⟨j 0, j 1, eq_ix2 j⟩
  rw [View.read_apply, show ((cfg0.win 4).blk t).view.emb (ix2 r q) = ix2 (node t r) q from
    Shape.idx_ext₂ (emb0 4 t _ 0) (emb0 4 t _ 1)]
  exact hG t r q

variable (h27 : ∀ k : Fin 128, V c main_v27 (ix2 (0 : Fin 1) k) = a4 (ix1 k))
  (h28 : ∀ k : Fin 128, V c main_v28 (ix2 (0 : Fin 1) k) = a5 (ix1 k)) (h0 : V c main_arg0 = a0) (h6 : V c main_arg6 = a6)
include h27 h28 h0 h6

theorem block_eq (t : Fin cfg0.N) (r : Fin 5000) (q : Fin 64) :
    k0_pay1 (iblk0 V c 2 t) (iblk0 V c 0 t) (iblk0 V c 1 t) (iblk0 V c 3 t) (ix2 r q) = Rv10 a0 a4 a5 a6 (ix2 (node t r) q) := by
  rw [pay_apply, ref_apply]
  refine Finset.sum_congr rfl fun k _ => ?_
  obtain ⟨er, em, ed, ew⟩ := iblk_apply V c t r k q
  rw [er, em, ed, ew, h27, h28, h0, h6]

theorem _root_.Cert.Bridge.region0_eq_ref (i : S100000x64.Idx) : (dat0 V c).arrAt 4 cfg0.N i = Rv10 a0 a4 a5 a6 i :=
  congrFun ((dat0 V c).arrAt_eq_of_cover 4 (Rv10 a0 a4 a5 a6)
    (fun t _ => flushed_eq V c _ (block_eq V c a0 a4 a5 a6 h27 h28 h0 h6) t) cover) i

end B0Aux

end Cert.Bridge

end
-- ==== Proof.Bridge.B1.lean ====
import proofs.«426907_j42056319762623_3_alg».proof.Proof.KI.Reg1
import proofs.«426907_j42056319762623_3_alg».proof.Proof.Bridge.Args
import proofs.«426907_j42056319762623_3_alg».proof.Proof.LibIndex
import Idealize.ShloMosaic.Lib.ValueLayout
import Idealize.ShloMosaic.Lib.Pipeline.Value
import Idealize.ShloMosaic.Lib.QrPanel.Panel

noncomputable section

namespace Cert.Bridge

open Cert.KernelIdeal Cert.KernelIdeal.Gen Cert.KernelIdeal.Hand
open Cert.LibIndex (matmul_zero_apply)
open Idealize.ShloMosaic.QrPanel.Panel (zeros2)
open Idealize.ShloMosaic Idealize.ShloMosaic.TcCoe Idealize.ShloMosaic.ValueIdx Idealize.SL.Sem

namespace B1Aux

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay_apply (xAgg : Vec Ideal S5000x64 .f32) (xD : Vec Ideal S5000x1 .f32) (xLin : Vec Ideal S5000x64 .bf16) (xB : Vec Ideal S1x64 .f32)
    (xW : Vec Ideal S64x32 .f32) (p : Fin 5000) (q : Fin 32) :
    k1_pay1 (F := Ideal) xAgg xD xLin xB xW (ix2 p q)
      = ∑ k : Fin 64, max ((xAgg (ix2 p k) + xD (ix2 p (0 : Fin 1)) * xLin (ix2 p k)) + xB (ix2 (0 : Fin 1) k)) 0 * xW (ix2 k q) := by
  unfold k1_pay1
  simp only [shapeCast_self]
  rw [truncf_apply, matmul_zero_apply _ rfl rfl rfl rfl rfl rfl]
  refine Finset.sum_congr rfl fun k _ => ?_
  rw [truncf_apply, truncf_apply, maximumf_apply, addf_apply, addf_apply, mulf_apply, extf_apply, broadcast_apply,
    broadcastTo_a1_ab_apply, broadcastTo_1b_ab_apply]
  show max _ (Ideal.ofBits .f32 0x00000000#32) * _ = _
  rw [Ideal.ofBits_zero_f32]

theorem off1 : ∀ (w : Fin cfg1.W) (t : Fin cfg1.N) (a : Fin (cfg1.win w).shape.rank),
    (cfg1.win w).index t a * (cfg1.win w).size a = if (w.val < 3 ∨ w.val = 5) ∧ a.val = 0 then 5000 * t.val else 0 := by
  decide +kernel

theorem emb1 (w : Fin cfg1.W) (t : Fin cfg1.N) (y : ((cfg1.win w).xblock (cfg1.grid.coords t)).Idx) (a : Fin (cfg1.win w).shape.rank) :
    (((cfg1.win w).rect t).emb y a : ℕ) = y a + if (w.val < 3 ∨ w.val = 5) ∧ a.val = 0 then 5000 * t.val else 0 := by
  rw [(cfg1.win w).rect_emb_val, off1, Nat.add_comm]

/-- Row `r` of block `t` among the 100000 rows. -/
def node (t : Fin cfg1.N) (r : Fin 5000) : Fin 100000 :=
  ⟨r.val + 5000 * t.val, by have := lt_of_lt_of_eq t.isLt N_1; omega⟩

theorem cover (i : S100000x32.Idx) : ∃ t : Fin cfg1.N, (cfg1.win 5).flush t = true ∧ i ∈ ((cfg1.win 5).blk t).view.set := by
  have hi := idx2_lt0 i
  obtain ⟨t, ht⟩ : ∃ t : Fin cfg1.N, t.val = (i 0).val / 5000 := ⟨⟨(i 0).val / 5000, by rw [show cfg1.N = 20 from N_1]; omega⟩, rfl⟩
  have h : ((cfg1.win 5).blk t).view.emb (ix2 ⟨(i 0).val % 5000, Nat.mod_lt _ (by decide)⟩ (i 1)) = i :=
    Shape.idx_ext₂ ((emb1 5 t _ 0).trans (by show (i 0).val % 5000 + 5000 * t.val = (i 0).val; omega)) (emb1 5 t _ 1)
  exact ⟨t, flush1_5 t, h ▸ View.emb_mem_set _ _⟩

variable (V : (c : Dev nD) → (b : Ref sig .tc) → Buf (Elt Ideal) ((c : Thread nD τ).loc b)) (c : Dev nD)
  (a0 : (⟨S100000x128, .f32⟩ : BufTy).Contents (Elt Ideal)) (a1 : (⟨S2x3200000, .i32⟩ : BufTy).Contents (Elt Ideal))
  (a2 : (⟨S3200000, .f32⟩ : BufTy).Contents (Elt Ideal)) (a4 a5 : (⟨S128, .f32⟩ : BufTy).Contents (Elt Ideal))
  (a6 : (⟨S128x64, .f32⟩ : BufTy).Contents (Elt Ideal)) (a7 : (⟨S64, .f32⟩ : BufTy).Contents (Elt Ideal))
  (a8 : (⟨S64x32, .f32⟩ : BufTy).Contents (Elt Ideal))

theorem iblk_apply (t : Fin cfg1.N) (r : Fin 5000) (k : Fin 64) (q : Fin 32) :
    (iblk1 V c 0 t : Vec Ideal S5000x64 .f32) (ix2 r k) = V c main_v43 (ix2 (node t r) k) ∧
    (iblk1 V c 1 t : Vec Ideal S5000x64 .bf16) (ix2 r k) = V c main_v29 (ix2 (node t r) k) ∧
    (iblk1 V c 2 t : Vec Ideal S5000x1 .f32) (ix2 r (0 : Fin 1)) = V c main_v44 (ix2 (node t r) (0 : Fin 1)) ∧
    (iblk1 V c 3 t : Vec Ideal S1x64 .f32) (ix2 (0 : Fin 1) k) = V c main_v45 (ix2 (0 : Fin 1) k) ∧
    (iblk1 V c 4 t : Vec Ideal S64x32 .f32) (ix2 k q) = V c main_arg8 (ix2 k q) :=
  ⟨congrArg (V c main_v43) (Shape.idx_ext₂ (emb1 0 t _ 0) (emb1 0 t _ 1)), congrArg (V c main_v29) (Shape.idx_ext₂ (emb1 1 t _ 0) (emb1 1 t _ 1)),
   congrArg (V c main_v44) (Shape.idx_ext₂ (emb1 2 t _ 0) (emb1 2 t _ 1)), congrArg (V c main_v45) (Shape.idx_ext₂ (emb1 3 t _ 0) (emb1 3 t _ 1)),
   congrArg (V c main_arg8) (Shape.idx_ext₂ (emb1 4 t _ 0) (emb1 4 t _ 1))⟩

open Cert.ReferenceIdeal.Read in
theorem ref_apply (n : Fin 100000) (q : Fin 32) :
    Rv55 a0 a1 a2 a4 a5 a6 a7 a8 (ix2 n q)
      = ∑ k : Fin 64, max ((Rv45 a0 a1 a2 a4 a5 a6 (ix2 n k) + Rv46 a1 a2 (ix1 n) * Rv10 a0 a4 a5 a6 (ix2 n k)) + a7 (ix1 k)) 0
          * a8 (ix2 k q) := by
  refine (val_main_v55_apply a0 a1 a2 a4 a5 a6 a7 a8 (ix2 n q)).trans ?_
  refine Finset.sum_congr rfl fun k _ => ?_
  have hl : lidx_main_v55 (ix2 n q) k = ix2 n k := eq_ix2 _
  have hr : ridx_main_v55 (ix2 n q) k = ix2 k q := eq_ix2 _
  have hd : idx_main_v47 (idx_main_v48 (ix2 n k)) = ix1 n := eq_ix1 _
  have hb : idx_main_v51 (idx_main_v52 (ix2 n k)) = ix1 k := eq_ix1 _
  rw [hl, hr, val_main_v54_apply, val_main_v53_apply, val_main_v50_apply, val_main_v49_apply, val_main_v48_apply,
    val_main_v47_apply, val_main_v52_apply, val_main_v51_apply, val_main_call0_v0_apply, val_main_call0_cst_apply, hd, hb]
  show max _ (Ideal.ofBits .f32 0x00000000#32) * _ = _
  rw [Ideal.ofBits_zero_f32]
  rfl

theorem flushed_eq (G : (⟨S100000x32, .bf16⟩ : BufTy).Contents (Elt Ideal))
    (hG : ∀ t r q, k1_pay1 (F := Ideal) (iblk1 V c 0 t) (iblk1 V c 2 t) (iblk1 V c 1 t) (iblk1 V c 3 t) (iblk1 V c 4 t) (ix2 r q)
      = G (ix2 (node t r) q)) (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero zeros2]
  simp only [View.ld_unit_zero (S := S5000x64) zeros2, View.ld_unit_zero (S := S5000x1) zeros2,
    View.ld_unit_zero (S := S1x64) zeros2, View.ld_unit_zero (S := S64x32) zeros2]
  funext j
  obtain ⟨r, q, rfl⟩ : ∃ (r : Fin 5000) (q : Fin 32), j = ix2 r q := ⟨j 0, j 1, eq_ix2 j⟩
  rw [View.read_apply, show ((cfg1.win 5).blk t).view.emb (ix2 r q) = ix2 (node t r) q from
    Shape.idx_ext₂ (emb1 5 t _ 0) (emb1 5 t _ 1)]
  exact hG t r q

variable (h43 : ∀ i : S100000x64.Idx, V c main_v43 i = Rv45 a0 a1 a2 a4 a5 a6 i)
  (h29 : ∀ i : S100000x64.Idx, V c main_v29 i = Rv10 a0 a4 a5 a6 i)
  (h44 : ∀ n : Fin 100000, V c main_v44 (ix2 n (0 : Fin 1)) = Rv46 a1 a2 (ix1 n))
  (h45 : ∀ k : Fin 64, V c main_v45 (ix2 (0 : Fin 1) k) = a7 (ix1 k)) (h8 : V c main_arg8 = a8)
include h43 h29 h44 h45 h8

theorem block_eq (t : Fin cfg1.N) (r : Fin 5000) (q : Fin 32) :
    k1_pay1 (F := Ideal) (iblk1 V c 0 t) (iblk1 V c 2 t) (iblk1 V c 1 t) (iblk1 V c 3 t) (iblk1 V c 4 t) (ix2 r q)
      = Rv55 a0 a1 a2 a4 a5 a6 a7 a8 (ix2 (node t r) q) := by
  rw [pay_apply, ref_apply]
  refine Finset.sum_congr rfl fun k _ => ?_
  obtain ⟨eg, el, ed, eb, ew⟩ := iblk_apply V c t r k q
  rw [eg, el, ed, eb, ew, h43, h29, h44, h45, h8]

theorem _root_.Cert.Bridge.region1_eq_ref (i : S100000x32.Idx) :
    (dat1 V c).arrAt 5 cfg1.N i = Rv55 a0 a1 a2 a4 a5 a6 a7 a8 i :=
  congrFun ((dat1 V c).arrAt_eq_of_cover 5 (Rv55 a0 a1 a2 a4 a5 a6 a7 a8)
    (fun t _ => flushed_eq V c _ (block_eq V c a0 a1 a2 a4 a5 a6 a7 a8 h43 h29 h44 h45 h8) t) cover) i

end B1Aux

end Cert.Bridge

end
-- ==== Proof.KI.Reg2Acc.lean ====
import proofs.«426907_j42056319762623_3_alg».proof.Proof.KI.Reg2
import Idealize.ShloMosaic.Lib.Pipeline.Value

namespace Cert.KernelIdeal.Hand

open Cert.KernelIdeal Cert.KernelIdeal.Gen Idealize.ShloMosaic Idealize.ShloMosaic.TcCoe Idealize.SL

variable {F : FTy → Type} [FloatOps F] (V : (c : Dev nD) → (b : Ref sig .tc) → Buf (Elt F) ((c : Thread nD τ).loc b))
  (c : Dev nD) (i : grid2.Coords) (arg1 : Memref sig .tc .vmem S5000x1 .i32) (harg1 : arg1.IsWhole) (arg2 : Memref sig .tc .vmem S5000x32 .f32) (harg2 : arg2.IsWhole) (arg3 : Memref sig .tc .vmem S5000x32 .bf16) (harg3 : arg3.IsWhole) (arg4 : Memref sig .tc .vmem S5000x1 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole)
  (x0 : Vec F S5000x1 .i32) (x1 : Vec F S5000x32 .f32) (x2 : Vec F S5000x32 .bf16) (x3 : Vec F S5000x1 .f32) (x4 : Vec F S1x32 .f32)

theorem hz2 : (![0, 0] : Fin 2 → Nat) = fun _ => 0 := by decide

/-- What each of the three cases leaves in the accumulators (and the last in the outputs) is the body's arithmetic on the point's blocks and on what the accumulators held. -/
theorem outs2_eq :
    (∀ (hc0 : cond2_0 i) (hc1 : ¬cond2_1 i), canon2 (kernelRun2_A c i arg1 harg1 arg2 harg2 arg3 harg3 arg4 harg4 arg5 harg5 arg6 harg6 arg7 harg7 arg8 harg8 arg9 harg9 hc0 hc1 x0 x1 x2 x3 x4) = (k2_pay5 x1 x3 x2 x4 x0 k2_pay2, k2_pay1 (k2_pay6 x0 k2_pay3))) ∧
    (∀ xs0 xs1 (hc0 : ¬cond2_0 i) (hc1 : ¬cond2_1 i), canon2 (kernelRun2_B c i arg1 harg1 arg2 harg2 arg3 harg3 arg4 harg4 arg5 harg5 arg6 harg6 arg7 harg7 arg8 harg8 arg9 harg9 hc0 hc1 x0 x1 x2 x3 x4 xs0 xs1) = (k2_pay5 x1 x3 x2 x4 x0 xs0, k2_pay1 (k2_pay6 x0 xs1))) ∧
    ∀ xs0 xs1 (hc0 : ¬cond2_0 i) (hc1 : cond2_1 i), canon4 (kernelRun2_C c i arg1 harg1 arg2 harg2 arg3 harg3 arg4 harg4 arg5 harg5 arg6 harg6 arg7 harg7 arg8 harg8 arg9 harg9 hc0 hc1 x0 x1 x2 x3 x4 xs0 xs1) = (k2_pay5 x1 x3 x2 x4 x0 xs0, k2_pay1 (k2_pay6 x0 xs1), k2_pay5 x1 x3 x2 x4 x0 xs0, k2_pay1 (k2_pay6 x0 xs1)) := by
  refine ⟨fun _ _ => ?_, fun _ _ _ _ => ?_, fun _ _ _ _ => ?_⟩ <;>
  · dsimp only [canon2, canon4, kernelRun2_A, kernelRun2_B, kernelRun2_C]
    sl_unfold_words
    simp only [View.readAt_eq_ld, Memref.IsWhole.read_unread, View.ld_unit_zero (S := S5000x1) hz2, View.ld_unit_zero (S := S5000x32) hz2, View.ld_unit_zero (S := S1x32) hz2, View.ld_unit_zero (S := S32x32) hz2, View.canon_cons_unit_zero (S := S32x32) hz2, View.canon_cons_unit_zero (S := S1x32) hz2, View.readCov_unit_zero (S := S32x32) _ hz2, View.readCov_unit_zero (S := S1x32) _ hz2]

/-- One point's update of the two accumulators from its blocks. -/
noncomputable def accStep2 (t : Fin cfg2.N) (a : Vec F S32x32 .f32 × Vec F S1x32 .f32) :=
  (k2_pay5 (iblk2 V c 1 t) (iblk2 V c 3 t) (iblk2 V c 2 t) (iblk2 V c 4 t) (iblk2 V c 0 t) a.1, k2_pay1 (k2_pay6 (iblk2 V c 0 t) a.2))

/-- The two accumulators after point `n`: the updates of the points 0 … n in order, from the zero block and the zero row. -/
noncomputable def poolAcc2 : (n : ℕ) → n < cfg2.N → Vec F S32x32 .f32 × Vec F S1x32 .f32
  | 0, hn => accStep2 V c ⟨0, hn⟩ (k2_pay2, k2_pay3)
  | n + 1, hn => accStep2 V c ⟨n + 1, hn⟩ (poolAcc2 n (Nat.lt_of_succ_lt hn))

/-- After every point the two accumulators hold `poolAcc2`. -/
theorem scratch_eq_poolAcc2 : ∀ (n : ℕ) (hn : n < cfg2.N), (outsAt2 V c n hn).2.2 = poolAcc2 V c n hn
  | 0, hn => (outs2_eq ..).1 _ _
  | n + 1, hn => by
    show _ = accStep2 V c ⟨n + 1, hn⟩ _
    rw [← scratch_eq_poolAcc2 n (Nat.lt_of_succ_lt hn), accStep2]
    by_cases h1 : n + 1 = 19
    · rw [show outsAt2 V c (n + 1) hn = _ from dif_pos h1, (outs2_eq ..).2.2]
    · rw [show outsAt2 V c (n + 1) hn = _ from dif_neg h1, (outs2_eq ..).2.1]

/-- The last point also copies them out to the two outputs. -/
theorem outsAt2_last (h : 19 < cfg2.N) :
    outsAt2 V c 19 h = ((poolAcc2 V c 19 h).1, (poolAcc2 V c 19 h).2, poolAcc2 V c 19 h) := by
  rw [show poolAcc2 V c 19 h = accStep2 V c ⟨19, h⟩ _ from rfl, ← scratch_eq_poolAcc2 V c 18 (Nat.lt_of_succ_lt h), accStep2, show outsAt2 V c 19 h = _ from dif_pos rfl, (outs2_eq ..).2.2]

theorem out5_last_eq_poolAcc2 (h : 19 < cfg2.N) : (dat2 V c).after 5 ⟨19, h⟩ = (poolAcc2 V c 19 h).1 := by
  rw [after2_5, outsAt2_last]

theorem out6_last_eq_poolAcc2 (h : 19 < cfg2.N) : (dat2 V c).after 6 ⟨19, h⟩ = (poolAcc2 V c 19 h).2 := by
  rw [after2_6, outsAt2_last]

end Cert.KernelIdeal.Hand
-- ==== Proof.Bridge.B2.lean ====
import proofs.«426907_j42056319762623_3_alg».proof.Proof.KI.Reg2Acc
import proofs.«426907_j42056319762623_3_alg».proof.Proof.Bridge.Args
import proofs.«426907_j42056319762623_3_alg».proof.Proof.LibIndex
import Idealize.ShloMosaic.Lib.ValueLayout
import Idealize.ShloMosaic.Lib.IdealHost

noncomputable section

namespace Cert.Bridge

open Cert.KernelIdeal Cert.KernelIdeal.Gen Cert.KernelIdeal.Hand Cert.ReferenceIdeal.Read
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)
  (a0 : (⟨S100000x128, .f32⟩ : BufTy).Contents (Elt Ideal)) (a1 : (⟨S2x3200000, .i32⟩ : BufTy).Contents (Elt Ideal))
  (a2 : (⟨S3200000, .f32⟩ : BufTy).Contents (Elt Ideal)) (a3 : (⟨S100000, .i32⟩ : BufTy).Contents (Elt Ideal))
  (a4 a5 : (⟨S128, .f32⟩ : BufTy).Contents (Elt Ideal)) (a6 : (⟨S128x64, .f32⟩ : BufTy).Contents (Elt Ideal))
  (a7 : (⟨S64, .f32⟩ : BufTy).Contents (Elt Ideal)) (a8 : (⟨S64x32, .f32⟩ : BufTy).Contents (Elt Ideal))
  (a9 : (⟨S32, .f32⟩ : BufTy).Contents (Elt Ideal))

namespace B2

theorem bit_toEReal (b : Bool) : ((((BitVec.ofBool b).setWidth 32).toInt : ℝ) : EReal) = if b then 1 else 0 := by
  cases b <;> simp

-- The membership mask at (r, g): 1 when node r's graph id is g, else 0.
theorem onehot_apply (batch : Vec Ideal S5000x1 .i32) (r : Fin 5000) (g : Fin 32) :
    k2_pay4 (F := Ideal) batch (ix2 r g) = if batch (ix2 r (0 : Fin 1)) = BitVec.ofNat 32 g.val then (1 : EReal) else 0 := by
  unfold k2_pay4
  rw [sitofp_apply, extui_apply, shapeCast_self]
  refine (bit_toEReal _).trans ?_
  rw [iota_single_apply, broadcastTo_apply batch _ (ix2 r g) (ix2 r (0 : Fin 1)) (Fin.forall_fin_two.2 ⟨rfl, rfl⟩)]
  exact if_congr beq_iff_eq rfl rfl

theorem dot_idx (g f : Fin 32) (k : Fin 5000) :
    dot_S5000x32_S5000x32_S32x32_0_0_1_1_n_n.lhsIdx (ix2 g f) ((contrEquiv1 _ 5000 rfl rfl).symm k) = ix2 k g ∧
    dot_S5000x32_S5000x32_S32x32_0_0_1_1_n_n.rhsIdx (ix2 g f) ((contrEquiv1 _ 5000 rfl rfl).symm k) = ix2 k f :=
  ⟨Shape.idx_ext₂ ((DotDims.lhsIdx_val_of_single _ rfl _ _).trans (contrEquiv1_symm_val _ 5000 rfl rfl k)) rfl,
   Shape.idx_ext₂ ((DotDims.rhsIdx_val_of_single _ rfl _ _).trans (contrEquiv1_symm_val _ 5000 rfl rfl k)) rfl⟩

-- A product contracted over the node axis of both operands: the mask's column g against the activations' column f.
theorem poolSum_step (agg : Vec Ideal S5000x32 .f32) (deg : Vec Ideal S5000x1 .f32) (lin : Vec Ideal S5000x32 .bf16)
    (bias : Vec Ideal S1x32 .f32) (batch : Vec Ideal S5000x1 .i32) (S : Vec Ideal S32x32 .f32) (g f : Fin 32) :
    (k2_pay5 (F := Ideal) agg deg lin bias batch S (ix2 g f) : EReal)
      = (S (ix2 g f) : EReal) + ∑ r : Fin 5000, k2_pay4 (F := Ideal) batch (ix2 r g)
          * max (((agg (ix2 r f) : EReal) + (deg (ix2 r (0 : Fin 1)) : EReal) * (lin (ix2 r f) : EReal)) + (bias (ix2 (0 : Fin 1) f) : EReal)) 0 := by
  unfold k2_pay5
  simp only [shapeCast_self, matmul]
  rw [addf_apply]
  congr 1
  refine (Ideal.matmul_constant_zero_apply _ _ _ _ _).trans ?_
  rw [← Equiv.sum_comp (contrEquiv1 _ 5000 rfl rfl).symm]
  refine Finset.sum_congr rfl fun k _ => ?_
  rw [(dot_idx g f k).1, (dot_idx g f k).2]
  congr 1
  rw [maximumf_apply, addf_apply, addf_apply, mulf_apply, extf_apply,
    broadcastTo_apply deg _ (ix2 k f) (ix2 k (0 : Fin 1)) (Fin.forall_fin_two.2 ⟨rfl, rfl⟩),
    broadcastTo_apply bias _ (ix2 k f) (ix2 (0 : Fin 1) f) (Fin.forall_fin_two.2 ⟨rfl, rfl⟩)]
  exact congrArg (max _) Ideal.ofBits_zero_f32

theorem poolCount_step (batch : Vec Ideal S5000x1 .i32) (C : Vec Ideal S1x32 .f32) (g : Fin 32) :
    (k2_pay1 (F := Ideal) (k2_pay6 (F := Ideal) batch C) (ix2 (0 : Fin 1) g) : EReal)
      = (C (ix2 (0 : Fin 1) g) : EReal) + ∑ r : Fin 5000, k2_pay4 (F := Ideal) batch (ix2 r g) := by
  unfold k2_pay1 k2_pay6
  rw [shapeCast_self, addf_apply, shapeCast_a_1a_apply]
  refine congrArg _ ((Ideal.multiReduction_add_single (k2_pay4 (F := Ideal) batch) _ reduces_S5000x32_S32 _ _ (ix1 g)).trans ?_)
  exact Finset.sum_congr rfl fun r _ => congrArg _ (Shape.idx_ext₂ rfl rfl)

-- Node n's activation at feature f in the reference.
def act (n : Fin 100000) (f : Fin 32) : EReal :=
  max (((Rv90 a0 a1 a2 a4 a5 a6 a7 a8 (ix2 n f) : EReal) + (Rv91 a1 a2 (ix1 n) : EReal) * (Rv55 a0 a1 a2 a4 a5 a6 a7 a8 (ix2 n f) : EReal))
    + (a9 (ix1 f) : EReal)) 0

theorem ids_col (n : Fin 100000) : val_main_v101 (F := Ideal) a3 (ix2 n (0 : Fin 1)) = a3 (ix1 n) :=
  (val_main_v101_apply a3 _).trans (congrArg a3 (eq_ix1 _))

-- The reference's per-graph sums: a scatter-add into zeros by graph id.
theorem Rv102_apply (g f : Fin 32) :
    (Rv102 a0 a1 a2 a3 a4 a5 a6 a7 a8 a9 (ix2 g f) : EReal)
      = ∑ n : Fin 100000, if (a3 (ix1 n)).toInt = (g.val : Int) then act a0 a1 a2 a4 a5 a6 a7 a8 a9 n f else 0 := by
  refine (Cert.LibIndex.scatterAdd_row_apply_of _ rfl rfl rfl rfl _ _ _ g f).trans ?_
  rw [val_main_v100_apply, val_main_cst_16_apply]
  refine (congrArg₂ (· + ·) Ideal.ofBits_zero_f32 (Finset.sum_congr rfl fun n _ => ?_)).trans (zero_add _)
  rw [ids_col, val_main_v99_apply, val_main_v98_apply, val_main_v95_apply, val_main_v94_apply, val_main_v93_apply, val_main_v92_apply,
    val_main_v97_apply, val_main_v96_apply, val_main_call1_v0_apply, val_main_call1_cst_apply,
    (eq_ix1 _ : idx_main_v92 (idx_main_v93 (ix2 n f)) = ix1 n), (eq_ix1 _ : idx_main_v96 (idx_main_v97 (ix2 n f)) = ix1 f)]
  exact if_congr Iff.rfl (congrArg (max _) Ideal.ofBits_zero_f32) rfl

-- The reference's per-graph node counts: a scatter-add of ones into zeros by graph id.
theorem Rv106_apply (g : Fin 32) :
    (Rv106 a3 (ix1 g) : EReal) = ∑ n : Fin 100000, if (a3 (ix1 n)).toInt = (g.val : Int) then (1 : EReal) else 0 := by
  refine (Cert.LibIndex.scatterAdd_vec_apply_of _ rfl rfl rfl rfl _ _ _ g).trans ?_
  rw [val_main_v104_apply, val_main_cst_18_apply]
  refine (congrArg₂ (· + ·) Ideal.ofBits_zero_f32 (Finset.sum_congr rfl fun n _ => ?_)).trans (zero_add _)
  rw [show val_main_v105 (F := Ideal) a3 = val_main_v101 a3 from rfl, ids_col, val_main_v103_apply, val_main_cst_17_apply]
  exact if_congr Iff.rfl Ideal.ofBits_one_f32 rfl

theorem n2 : cfg2.N = 20 := by decide

theorem p19 : 19 < cfg2.N := by decide

theorem off2 : ∀ (w : Fin cfg2.W) (t : Fin cfg2.N) (a : Fin (cfg2.win w).shape.rank),
    (cfg2.win w).index t a * (cfg2.win w).size a = if w.val < 4 ∧ a.val = 0 then 5000 * t.val else 0 := by decide +kernel

theorem emb2 (w : Fin cfg2.W) (t : Fin cfg2.N) (y : ((cfg2.win w).xblock (cfg2.grid.coords t)).Idx) (a : Fin (cfg2.win w).shape.rank) :
    (((cfg2.win w).rect t).emb y a : ℕ) = y a + if w.val < 4 ∧ a.val = 0 then 5000 * t.val else 0 := by
  rw [(cfg2.win w).rect_emb_val, off2, Nat.add_comm]

-- Row r of block t among the 100000 nodes.
def node (t : Fin cfg2.N) (r : Fin 5000) : Fin 100000 :=
  ⟨r.val + 5000 * t.val, by have := n2; omega⟩

theorem iblk2_apply (t : Fin cfg2.N) (r : Fin 5000) (f : Fin 32) :
    iblk2 V c 0 t (ix2 r (0 : Fin 1)) = V c main_v61 (ix2 (node t r) (0 : Fin 1)) ∧
    iblk2 V c 1 t (ix2 r f) = V c main_v60 (ix2 (node t r) f) ∧
    iblk2 V c 2 t (ix2 r f) = V c main_v46 (ix2 (node t r) f) ∧
    iblk2 V c 3 t (ix2 r (0 : Fin 1)) = V c main_v62 (ix2 (node t r) (0 : Fin 1)) ∧
    iblk2 V c 4 t (ix2 (0 : Fin 1) f) = V c main_v63 (ix2 (0 : Fin 1) f) :=
  ⟨congrArg (V c main_v61) (Shape.idx_ext₂ (emb2 0 t _ 0) (emb2 0 t _ 1)), congrArg (V c main_v60) (Shape.idx_ext₂ (emb2 1 t _ 0) (emb2 1 t _ 1)),
   congrArg (V c main_v46) (Shape.idx_ext₂ (emb2 2 t _ 0) (emb2 2 t _ 1)), congrArg (V c main_v62) (Shape.idx_ext₂ (emb2 3 t _ 0) (emb2 3 t _ 1)),
   congrArg (V c main_v63) (Shape.idx_ext₂ (emb2 4 t _ 0) (emb2 4 t _ 1))⟩

theorem last_eq {t t' : Fin cfg2.N} (h : t.val % 20 = 19) (h' : t'.val % 20 = 19) : t = t' :=
  Fin.ext (by have := n2; omega)

theorem arrAt5_eq (i : S32x32.Idx) : (dat2 V c).arrAt 5 cfg2.N i = (poolAcc2 V c 19 p19).1 i := by
  have h := (dat2 V c).arrAt_emb_eq_flushed 5 (fun t t' ht ht' hne => absurd (last_eq ((flush2_5 t).mp ht) ((flush2_5 t').mp ht')) hne)
    ⟨19, p19⟩ ((flush2_5 _).mpr rfl) i
  rw [show ((cfg2.win 5).blk ⟨19, p19⟩).view.emb i = i from Shape.idx_ext₂ (emb2 5 _ i 0) (emb2 5 _ i 1)] at h
  exact h.trans (congrFun (out5_last_eq_poolAcc2 V c p19) i)

theorem arrAt6_eq (i : S1x32.Idx) : (dat2 V c).arrAt 6 cfg2.N i = (poolAcc2 V c 19 p19).2 i := by
  have h := (dat2 V c).arrAt_emb_eq_flushed 6 (fun t t' ht ht' hne => absurd (last_eq ((flush2_6 t).mp ht) ((flush2_6 t').mp ht')) hne)
    ⟨19, p19⟩ ((flush2_6 _).mpr rfl) i
  rw [show ((cfg2.win 6).blk ⟨19, p19⟩).view.emb i = i from Shape.idx_ext₂ (emb2 6 _ i 0) (emb2 6 _ i 1)] at h
  exact h.trans (congrFun (out6_last_eq_poolAcc2 V c p19) i)

-- A quantity that is y 0 at point 0 and gains y (n + 1) at point n + 1 is, at point n, the sum of y over the points up to n.
theorem acc_sum {M : Type*} [AddCommMonoid M] {N : ℕ} (a : (n : ℕ) → n < N → M) (y : Fin N → M)
    (h0 : ∀ h, a 0 h = y ⟨0, h⟩) (hs : ∀ n h, a (n + 1) h = a n (Nat.lt_of_succ_lt h) + y ⟨n + 1, h⟩) :
    ∀ n (h : n < N), a n h = ∑ t : Fin (n + 1), y ⟨t.val, by omega⟩
  | 0, h => by rw [h0, Fin.sum_univ_one]; rfl
  | n + 1, h => by rw [hs, acc_sum a y h0 hs n]; exact Eq.symm (Fin.sum_univ_castSucc _)

-- The twenty blocks of 5000 rows are the 100000 nodes, so adding block sums to zero point by point gives the sum over all nodes.
theorem acc_blocks (a : (n : ℕ) → n < cfg2.N → EReal) (x : Fin 100000 → EReal) (z : EReal) (h0 : ∀ h, a 0 h = z + ∑ r, x (node ⟨0, h⟩ r))
    (hs : ∀ n h, a (n + 1) h = a n (Nat.lt_of_succ_lt h) + ∑ r, x (node ⟨n + 1, h⟩ r)) (hz : z = 0) : a 19 p19 = ∑ m, x m := by
  rw [acc_sum a (fun t => ∑ r, x (node t r)) (fun h => by rw [h0, hz, zero_add]) hs 19 p19,
    ← Equiv.sum_comp (finProdFinEquiv (m := 20) (n := 5000)) x, Fintype.sum_prod_type]
  rfl

-- The kernel's mask entry times a value is the reference's choice between the value and zero.
theorem mask_mul (b : BitVec 32) (g : Fin 32) (x : EReal) :
    (if b = BitVec.ofNat 32 g.val then (1 : EReal) else 0) * x = if b.toInt = (g.val : Int) then x else 0 := by
  have e : (BitVec.ofNat 32 g.val).toInt = (g.val : Int) := by
    rw [BitVec.toInt_eq_toNat_of_lt (by rw [BitVec.toNat_ofNat]; omega), BitVec.toNat_ofNat]; omega
  simp only [← e, BitVec.toInt_inj, ite_mul, one_mul, zero_mul]

end B2

open B2

variable (h61 : ∀ n : Fin 100000, V c main_v61 (ix2 n (0 : Fin 1)) = a3 (ix1 n))
include h61

theorem B2.cnt_point (t : Fin cfg2.N) (C : Vec Ideal S1x32 .f32) (g : Fin 32) :
    (k2_pay1 (F := Ideal) (k2_pay6 (F := Ideal) (iblk2 V c 0 t) C) (ix2 (0 : Fin 1) g) : EReal)
      = (C (ix2 (0 : Fin 1) g) : EReal) + ∑ r : Fin 5000, if (a3 (ix1 (node t r))).toInt = (g.val : Int) then (1 : EReal) else 0 := by
  refine (poolCount_step _ C g).trans (congrArg _ (Finset.sum_congr rfl fun r _ => ?_))
  rw [onehot_apply, (iblk2_apply V c t r g).1, h61, ← mul_one (ite _ _ _)]
  exact mask_mul _ g 1

-- Region 2's second output after its last grid point is the reference's per-graph node count.
theorem region2_count_eq_ref (g : Fin 32) : (dat2 V c).arrAt 6 cfg2.N (ix2 (0 : Fin 1) g) = Rv106 a3 (ix1 g) := by
  rw [arrAt6_eq, Rv106_apply]
  exact acc_blocks (fun n h => ((poolAcc2 V c n h).2 (ix2 (0 : Fin 1) g) : EReal)) _ _
    (fun h => cnt_point V c a3 h61 ⟨0, h⟩ _ g) (fun n h => cnt_point V c a3 h61 ⟨n + 1, h⟩ _ g) Ideal.ofBits_zero_f32

variable (h60 : ∀ i : S100000x32.Idx, V c main_v60 i = Rv90 a0 a1 a2 a4 a5 a6 a7 a8 i)
  (h46 : ∀ i : S100000x32.Idx, V c main_v46 i = Rv55 a0 a1 a2 a4 a5 a6 a7 a8 i)
  (h62 : ∀ n : Fin 100000, V c main_v62 (ix2 n (0 : Fin 1)) = Rv91 a1 a2 (ix1 n))
  (h63 : ∀ k : Fin 32, V c main_v63 (ix2 (0 : Fin 1) k) = a9 (ix1 k))
include h60 h46 h62 h63

theorem B2.sum_point (t : Fin cfg2.N) (S : Vec Ideal S32x32 .f32) (g f : Fin 32) :
    (k2_pay5 (F := Ideal) (iblk2 V c 1 t) (iblk2 V c 3 t) (iblk2 V c 2 t) (iblk2 V c 4 t) (iblk2 V c 0 t) S (ix2 g f) : EReal)
      = (S (ix2 g f) : EReal) + ∑ r : Fin 5000,
          if (a3 (ix1 (node t r))).toInt = (g.val : Int) then act a0 a1 a2 a4 a5 a6 a7 a8 a9 (node t r) f else 0 := by
  refine (poolSum_step _ _ _ _ _ S g f).trans (congrArg _ (Finset.sum_congr rfl fun r _ => ?_))
  obtain ⟨e0, e1, e2, e3, e4⟩ := iblk2_apply V c t r f
  rw [onehot_apply, e0, e1, e2, e3, e4, h61, h60, h46, h62, h63]
  exact mask_mul _ g _

-- Region 2's first output after its last grid point is the reference's per-graph sum of the second layer's activations.
theorem region2_sum_eq_ref (i : S32x32.Idx) : (dat2 V c).arrAt 5 cfg2.N i = Rv102 a0 a1 a2 a3 a4 a5 a6 a7 a8 a9 i := by
  obtain ⟨g, f, rfl⟩ : ∃ (g : Fin 32) (f : Fin 32), i = ix2 g f := ⟨i 0, i 1, eq_ix2 i⟩
  rw [arrAt5_eq, Rv102_apply]
  exact acc_blocks (fun n h => ((poolAcc2 V c n h).1 (ix2 g f) : EReal)) _ _
    (fun h => sum_point V c a0 a1 a2 a3 a4 a5 a6 a7 a8 a9 h61 h60 h46 h62 h63 ⟨0, h⟩ _ g f)
    (fun n h => sum_point V c a0 a1 a2 a3 a4 a5 a6 a7 a8 a9 h61 h60 h46 h62 h63 ⟨n + 1, h⟩ _ g f) Ideal.ofBits_zero_f32

end Cert.Bridge

end
-- ==== Proof.Bridge.H0.lean ====
import proofs.«426907_j42056319762623_3_alg».proof.Proof.KI.Fold
import proofs.«426907_j42056319762623_3_alg».proof.Proof.Bridge.Args
import proofs.«426907_j42056319762623_3_alg».proof.Proof.Gen.KernelIdeal.Regions
import Idealize.ShloMosaic.Lib.ValueLayout
import Idealize.ShloMosaic.Lib.StableHlo.Run

namespace Cert.Bridge

open Cert.KernelIdeal Cert.KernelIdeal.Gen Cert.KernelIdeal.Hand
open Idealize.ShloMosaic Idealize.ShloMosaic.TcCoe Idealize.ShloMosaic.ValueIdx Idealize.SL.Sem

variable {m : (ℓ : Loc nD τ sig) → Buf (Elt Ideal) ℓ} {ρ : Dev nD → PrngReg} {c : Dev nD}

/-- A vector cast to a column reads, at `(i, u)`, the vector at `i`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

section Kept

variable (r : Ref sig .tc)

abbrev Kept2 : Prop := ∀ w, Pipeline.arrRef spec0 w ≠ r
abbrev Kept3 : Prop := Kept2 r ∧ r ∉ hostOps1_W
abbrev Kept4 : Prop := Kept3 r ∧ ∀ w, Pipeline.arrRef spec1 w ≠ r
abbrev Kept6 : Prop := Kept4 r ∧ r ∉ hostOps2_W ∧ ∀ w, Pipeline.arrRef spec2 w ≠ r

theorem kept1 (h : r ∉ hostOps0_W := by decide) : W1 m ρ c r = m ((c : Thread nD τ).loc r) :=
  StableHlo.after_of_writes_sub hostOps0 _ hostOps0_writes h

theorem kept2 (h : Kept2 r := by decide) : W2 m ρ c r = W1 m ρ c r := W2_of_ne m ρ c r h

theorem kept3 (h : Kept3 r := by decide) : W3 m ρ c r = W1 m ρ c r :=
  (StableHlo.after_of_writes_sub hostOps1 _ hostOps1_writes h.2).trans (kept2 r h.1)

theorem kept4 (h : Kept4 r := by decide) : W4 m ρ c r = W1 m ρ c r := (W4_of_ne m ρ c r h.2).trans (kept3 r h.1)

theorem kept6 (h : Kept6 r := by decide) : W6 m ρ c r = W1 m ρ c r :=
  (W6_of_ne m ρ c r h.2.2).trans ((StableHlo.after_of_writes_sub hostOps2 _ hostOps2_writes h.2.1).trans (kept4 r h.1))

end Kept

theorem W1_v1 : W1 m ρ c main_v1 = Rv1 (A1 m c) := by after_results_simp; rfl
theorem W1_v3 : W1 m ρ c main_v3 = Rv3 (A1 m c) := by after_results_simp; rfl
theorem W1_v25 : W1 m ρ c main_v25 = Rv32 (A1 m c) (A2 m c) := by after_results_simp; rfl
theorem W1_v26 : W1 m ρ c main_v26 = Rv46 (A1 m c) (A2 m c) := by after_results_simp; rfl
theorem W1_v27 (k : Fin 128) : W1 m ρ c main_v27 (ix2 (0 : Fin 1) k) = A4 m c (ix1 k) := by
  after_results; exact shapeCast_a_1a_apply _ _ 0 k
theorem W1_v28 (k : Fin 128) : W1 m ρ c main_v28 (ix2 (0 : Fin 1) k) = A5 m c (ix1 k) := by
  after_results; exact shapeCast_a_1a_apply _ _ 0 k

end Cert.Bridge
-- ==== Proof.Bridge.H1.lean ====
import proofs.«426907_j42056319762623_3_alg».proof.Proof.Bridge.H0

namespace Cert.Bridge

open Cert.KernelIdeal Cert.KernelIdeal.Gen Cert.KernelIdeal.Hand
open Idealize.ShloMosaic Idealize.ShloMosaic.TcCoe Idealize.ShloMosaic.ValueIdx Idealize.SL.Sem

variable {m : (ℓ : Loc nD τ sig) → Buf (Elt Ideal) ℓ} {ρ : Dev nD → PrngReg} {c : Dev nD}

/-- The stretch applies the reference's own operations to arrays already matched with the reference's. -/
theorem W3_v43 {a0 a4 a5 a6} (h29 : W2 m ρ c main_v29 = Rv10 a0 a4 a5 a6) :
    W3 m ρ c main_v43 = Rv45 a0 (A1 m c) (A2 m c) a4 a5 a6 := by
  after_results_simp
  rw [h29, kept2 main_v1, W1_v1, kept2 main_v3, W1_v3, kept2 main_v25, W1_v25]
  rfl

theorem W3_v44 (n : Fin 100000) : W3 m ρ c main_v44 (ix2 n (0 : Fin 1)) = Rv46 (A1 m c) (A2 m c) (ix1 n) := by
  after_results
  rw [kept2 main_v26, W1_v26]
  exact shapeCast_a_a1_apply _ _ n 0

theorem W3_v45 (k : Fin 64) : W3 m ρ c main_v45 (ix2 (0 : Fin 1) k) = A7 m c (ix1 k) := by
  after_results
  rw [kept2 main_arg7, kept1 main_arg7]
  exact shapeCast_a_1a_apply _ _ 0 k

end Cert.Bridge
-- ==== Proof.Bridge.H2.lean ====
import proofs.«426907_j42056319762623_3_alg».proof.Proof.Bridge.H0

namespace Cert.Bridge

open Cert.KernelIdeal Cert.KernelIdeal.Gen Cert.KernelIdeal.Hand
open Idealize.ShloMosaic Idealize.ShloMosaic.TcCoe Idealize.ShloMosaic.ValueIdx Idealize.SL.Sem

variable {m : (ℓ : Loc nD τ sig) → Buf (Elt Ideal) ℓ} {ρ : Dev nD → PrngReg} {c : Dev nD}

theorem W5_v60 {a0 a4 a5 a6 a7 a8} (h46 : W4 m ρ c main_v46 = Rv55 a0 (A1 m c) (A2 m c) a4 a5 a6 a7 a8) :
    W5 m ρ c main_v60 = Rv90 a0 (A1 m c) (A2 m c) a4 a5 a6 a7 a8 := by
  after_results_simp
  rw [h46, kept4 main_v1, W1_v1, kept4 main_v3, W1_v3, kept4 main_v25, W1_v25]
  rfl

theorem W5_v61 (n : Fin 100000) : W5 m ρ c main_v61 (ix2 n (0 : Fin 1)) = A3 m c (ix1 n) := by
  after_results
  rw [kept4 main_arg3, kept1 main_arg3]
  exact shapeCast_a_a1_apply _ _ n 0

theorem W5_v62 (n : Fin 100000) : W5 m ρ c main_v62 (ix2 n (0 : Fin 1)) = Rv91 (A1 m c) (A2 m c) (ix1 n) := by
  after_results
  rw [kept4 main_v26, W1_v26]
  exact shapeCast_a_a1_apply _ _ n 0

theorem W5_v63 (k : Fin 32) : W5 m ρ c main_v63 (ix2 (0 : Fin 1) k) = A9 m c (ix1 k) := by
  after_results
  rw [kept4 main_arg9, kept1 main_arg9]
  exact shapeCast_a_1a_apply _ _ 0 k

end Cert.Bridge
-- ==== Proof.Bridge.H3.lean ====
import proofs.«426907_j42056319762623_3_alg».proof.Proof.Bridge.H0

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

variable {m : (ℓ : Loc nD τ sig) → Buf (Elt Ideal) ℓ} {ρ : Dev nD → PrngReg} {c : Dev nD}

def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem join2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = join2 t a s₁ s₂ h x y := rfl

/-- The closing stretches are the reference's closing stages, operation for operation. -/
theorem W9_v81 {a0 a1 a2 a3 a4 a5 a6 a7 a8 a9} (hs : W6 m ρ c main_v64_0 = Rv102 a0 a1 a2 a3 a4 a5 a6 a7 a8 a9)
    (hc : ∀ g : Fin 32, W6 m ρ c main_v64_1 (ix2 (0 : Fin 1) g) = Rv106 a3 (ix1 g)) :
    W9 m ρ c main_v81 = Rv122 a0 a1 a2 a3 a4 a5 a6 a7 a8 a9 (A10 m c) (A11 m c) (A12 m c) (A13 m c) := by
  have hC : shapeCast S32 (W6 m ρ c main_v64_1) shapeCasts_S1x32_S32 = Rv106 a3 :=
    funext fun j => by rw [eq_ix1 j]; exact (shapeCast_1a_a_apply _ _ _).trans (hc _)
  after_results_simp
  rw [join2_eq]
  after_results_simp
  rw [kept6 main_arg12, kept1 main_arg12, kept6 main_arg13, kept1 main_arg13, kept6 main_arg10, kept1 main_arg10,
    kept6 main_arg11, kept1 main_arg11, hs]
  erw [hC]
  rfl

end Cert.Bridge

end
-- ==== Proof.Bridge.Final.lean ====
import proofs.«426907_j42056319762623_3_alg».proof.Proof.Bridge.B0
import proofs.«426907_j42056319762623_3_alg».proof.Proof.Bridge.B1
import proofs.«426907_j42056319762623_3_alg».proof.Proof.Bridge.B2
import proofs.«426907_j42056319762623_3_alg».proof.Proof.Bridge.H1
import proofs.«426907_j42056319762623_3_alg».proof.Proof.Bridge.H2
import proofs.«426907_j42056319762623_3_alg».proof.Proof.Bridge.H3

namespace Cert.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Each region's output is the reference's stage, given the stretch before it; the stretch after it carries that on. -/
theorem kernel_result :
    V9 m ρ c main_v81 = Rv122 (A0 m c) (A1 m c) (A2 m c) (A3 m c) (A4 m c) (A5 m c) (A6 m c) (A7 m c) (A8 m c) (A9 m c)
      (A10 m c) (A11 m c) (A12 m c) (A13 m c) := by
  have lin1 := (W2_arr m ρ c 4).trans
    (funext (region0_eq_ref (V1 m ρ) c _ _ _ _ W1_v27 W1_v28 (kept1 main_arg0) (kept1 main_arg6)))
  have lin2 := (W4_arr m ρ c 5).trans
    (funext (region1_eq_ref (V3 m ρ) c _ _ _ _ _ _ _ _ (congrFun (W3_v43 lin1))
      (congrFun ((StableHlo.after_of_writes_sub hostOps1 _ hostOps1_writes (by decide)).trans lin1))
      W3_v44 W3_v45 ((kept3 main_arg8).trans (kept1 main_arg8))))
  have sums := (W6_arr m ρ c 5).trans
    (funext (region2_sum_eq_ref (V5 m ρ) c _ _ _ _ _ _ _ _ _ _ W5_v61 (congrFun (W5_v60 lin2))
      (congrFun ((StableHlo.after_of_writes_sub hostOps2 _ hostOps2_writes (by decide)).trans lin2)) W5_v62 W5_v63))
  exact W9_v81 sums fun g => (congrFun (W6_arr m ρ c 6) _).trans (region2_count_eq_ref (V5 m ρ) c _ W5_v61 g)

end Cert.Bridge
-- ==== Proof.lean ====
/-
  The kernel program and the reference compute the same result over the extended reals. There a change of float format is
  the identity and a matrix product is the exact sum, so the first two kernels' row blocks assemble to the reference's two
  linear layers; the third multiplies a one-hot matrix of the graph ids into the activations block by block, which is the
  reference's scatter-add by graph id since 0 · x = 0 for every extended real, the one-hot column sums being its node counts.
-/
import proofs.«426907_j42056319762623_3_alg».proof.Defs
import proofs.«426907_j42056319762623_3_alg».proof.Proof.Gen.Kernel
import proofs.«426907_j42056319762623_3_alg».proof.Proof.Gen.KernelIdeal
import proofs.«426907_j42056319762623_3_alg».proof.Proof.Gen.ReferenceIdeal
import proofs.«426907_j42056319762623_3_alg».proof.Proof.Gen.Pre_finite_inputs
import proofs.«426907_j42056319762623_3_alg».proof.Proof.Gen.ReferenceIdeal.Run
import proofs.«426907_j42056319762623_3_alg».proof.Proof.Gen.ReferenceIdeal.Read
import proofs.«426907_j42056319762623_3_alg».proof.Proof.K.Run
import proofs.«426907_j42056319762623_3_alg».proof.Proof.KI.Run
import proofs.«426907_j42056319762623_3_alg».proof.Proof.Bridge.Final
import Idealize.ShloMosaic.Adequacy
import Idealize.ShloMosaic.Init

noncomputable section

namespace Cert.Proof

open Idealize.ShloMosaic Idealize.ShloMosaic.TcCoe Idealize.SL.Sem

/-- The kernel program runs and leaves every argument as launched: an argument is never written. -/
theorem frame_word : Cert.frame_Kernel (hKernel := Cert.Kernel.Gen.facts) (hPre_finite_inputs := Cert.Pre_finite_inputs.Gen.facts) :=
  fun m ρ _ => (θ_run Cert.Kernel.defs _ _).mono
    (fun _ h c => by and_intros <;> exact Cert.Kernel.Hand.kept m ρ (h c) _ (by decide) (by decide) (by decide))
    (Cert.Kernel.Hand.run m ρ)

theorem frame_ideal : Cert.frame_KernelIdeal (hKernelIdeal := Cert.KernelIdeal.Gen.facts) (hPre_finite_inputs := Cert.Pre_finite_inputs.Gen.facts) :=
  fun m ρ _ => (θ_run Cert.KernelIdeal.defs _ _).mono
    (fun _ h c => by and_intros <;> exact Cert.KernelIdeal.Hand.kept m ρ (h c) _ (by decide) (by decide) (by decide))
    (Cert.KernelIdeal.Hand.run m ρ)

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Each run names its result as a function of the arguments, and the two functions are equal (`Bridge.kernel_result`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.V9 m ρ c Cert.KernelIdeal.main_v81, ?_, ?_⟩
  · refine (θ_run Cert.KernelIdeal.defs _ _).mono (fun r h c => ⟨h c _ (Cert.KernelIdeal.Hand.mem_uc Cert.KernelIdeal.main_v81 (by decide)), ?_⟩)
      (Cert.KernelIdeal.Hand.run (F := Ideal) m ρ)
    and_intros <;> exact Cert.KernelIdeal.Hand.kept m ρ (h c) _ (by decide) (by decide) (by decide)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v122_eq, e0, e1, e2, e3, e4, e5, e6, e7, e8, e9, e10, e11, e12, e13]
    exact (Cert.Bridge.kernel_result m ρ c).symm

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
